-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x2048 : Shape := ⟨3, ![1, 1, 2048]⟩
abbrev S64x2048 : Shape := ⟨2, ![64, 2048]⟩
abbrev S50257x2048 : Shape := ⟨2, ![50257, 2048]⟩
abbrev S64x4096 : Shape := ⟨2, ![64, 4096]⟩
abbrev S64 : Shape := ⟨1, ![64]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S50257 : Shape := ⟨1, ![50257]⟩
abbrev S_ : Shape := ⟨0, ![]⟩

class Facts : Prop where
  bcast_S_S1x1x2048 : S_.BroadcastsInDim S1x1x2048 (![] : Fin 0 → Fin S1x1x2048.rank)
  reducesTo_S1x1x2048_S_d0_1_2 : S1x1x2048.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S50257x2048 : S_.BroadcastsInDim S50257x2048 (![] : Fin 0 → Fin S50257x2048.rank)
  reducesTo_S50257x2048_S_d0_1 : S50257x2048.ReducesTo [0, 1] S_
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S50257 : S_.BroadcastsInDim S50257 (![] : Fin 0 → Fin S50257.rank)
  reducesTo_S50257_S_d0 : S50257.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_arg0 : IVec S1 32) (main_v67 : IVec S_ 1) : IVec S_ 1 :=
  let main_c_26 : IVec S_ 32 := constantI S_ 32 50257#32
  let main_v68 : IVec S1 32 := broadcastInDim S1 ![] bcast_S_S1 main_c_26
  let main_v69 : IVec S1 1 := cmpi .slt main_arg0 main_v68
  let main_c_27 : IVec S_ 1 := constantI S_ 1 1#1
  let main_v70 : IVec S_ 1 := (fun x v => Host.reduce IntOp.andi x v reducesTo_S1_S_d0 h_S_) main_v69 main_c_27
  let main_v71 : IVec S_ 1 := andi main_v67 main_v70
  main_v71

def fn_part3 {F : FTy → Type} [FloatOps F] (main_arg0 : IVec S1 32) (main_arg12 : FVec F S50257x2048 .f32) (main_arg13 : FVec F S50257 .f32) (main_v48 : IVec S_ 1) (main_v49 : FVec F S6144 .f32) (main_v50 : FVec F S6144 .f32) : IVec S_ 1 :=
  let main_v51 : IVec S6144 1 := cmpf .olt main_v49 main_v50
  let main_c_19 : IVec S_ 1 := constantI S_ 1 1#1
  let main_v52 : IVec S_ 1 := (fun x v => Host.reduce IntOp.andi x v reducesTo_S6144_S_d0 h_S_) main_v51 main_c_19
  let main_v53 : IVec S_ 1 := andi main_v48 main_v52
  let main_v54 : FVec F S50257x2048 .f32 := Host.absf main_arg12
  let main_cst_20 : FVec F S_ .f32 := constant S_ .f32 0x7F800000#32
  let main_v55 : FVec F S50257x2048 .f32 := broadcastInDim S50257x2048 ![] bcast_S_S50257x2048 main_cst_20
  let main_v56 : IVec S50257x2048 1 := cmpf .olt main_v54 main_v55
  let main_c_21 : IVec S_ 1 := constantI S_ 1 1#1
  let main_v57 : IVec S_ 1 := (fun x v => Host.reduce IntOp.andi x v reducesTo_S50257x2048_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  let main_c_24 : IVec S_ 32 := constantI S_ 32 0#32
  let main_v64 : IVec S1 32 := broadcastInDim S1 ![] bcast_S_S1 main_c_24
  let main_v65 : IVec S1 1 := cmpi .sge main_arg0 main_v64
  let main_c_25 : IVec S_ 1 := constantI S_ 1 1#1
  let main_v66 : IVec S_ 1 := (fun x v => Host.reduce IntOp.andi x v reducesTo_S1_S_d0 h_S_) main_v65 main_c_25
  let main_v67 : IVec S_ 1 := andi main_v63 main_v66
  fn_part4 (F := F) main_arg0 main_v67

def fn_part2 {F : FTy → Type} [FloatOps F] (main_arg0 : IVec S1 32) (main_arg8 : FVec F S6144x2048 .f32) (main_arg9 : FVec F S6144x2048 .f32) (main_arg10 : FVec F S6144 .f32) (main_arg11 : FVec F S6144 .f32) (main_arg12 : FVec F S50257x2048 .f32) (main_arg13 : FVec F S50257 .f32) (main_v33 : IVec S_ 1) : IVec S_ 1 :=
  let main_v34 : FVec F S6144x2048 .f32 := Host.absf main_arg8
  let main_cst_12 : FVec F S_ .f32 := constant S_ .f32 0x7F800000#32
  let main_v35 : FVec F S6144x2048 .f32 := broadcastInDim S6144x2048 ![] bcast_S_S6144x2048 main_cst_12
  let main_v36 : IVec S6144x2048 1 := cmpf .olt main_v34 main_v35
  let main_c_13 : IVec S_ 1 := constantI S_ 1 1#1
  let main_v37 : IVec S_ 1 := (fun x v => Host.reduce IntOp.andi x v reducesTo_S6144x2048_S_d0_1 h_S_) main_v36 main_c_13
  let main_v38 : IVec S_ 1 := andi main_v33 main_v37
  let main_v39 : FVec F S6144x2048 .f32 := Host.absf main_arg9
  let main_cst_14 : FVec F S_ .f32 := constant S_ .f32 0x7F800000#32
  let main_v40 : FVec F S6144x2048 .f32 := broadcastInDim S6144x2048 ![] bcast_S_S6144x2048 main_cst_14
  let main_v41 : IVec S6144x2048 1 := cmpf .olt main_v39 main_v40
  let main_c_15 : IVec S_ 1 := constantI S_ 1 1#1
  let main_v42 : IVec S_ 1 := (fun x v => Host.reduce IntOp.andi x v reducesTo_S6144x2048_S_d0_1 h_S_) main_v41 main_c_15
  let main_v43 : IVec S_ 1 := andi main_v38 main_v42
  let main_v44 : FVec F S6144 .f32 := Host.absf main_arg10
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  let main_v49 : FVec F S6144 .f32 := Host.absf main_arg11
  let main_cst_18 : FVec F S_ .f32 := constant S_ .f32 0x7F800000#32
  let main_v50 : FVec F S6144 .f32 := broadcastInDim S6144 ![] bcast_S_S6144 main_cst_18
  fn_part3 (F := F) main_arg0 main_arg12 main_arg13 main_v48 main_v49 main_v50

def fn_part1 {F : FTy → Type} [FloatOps F] (main_arg0 : IVec S1 32) (main_arg5 : FVec F S64 .f32) (main_arg6 : FVec F S2048x4096 .f32) (main_arg7 : FVec F S2048 .f32) (main_arg8 : FVec F S6144x2048 .f32) (main_arg9 : FVec F S6144x2048 .f32) (main_arg10 : FVec F S6144 .f32) (main_arg11 : FVec F S6144 .f32) (main_arg12 : FVec F S50257x2048 .f32) (main_arg13 : FVec F S50257 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2048x4096 .f32 := Host.absf main_arg6
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S1 32) (main_arg1 : FVec F S1x1x2048 .f32) (main_arg2 : FVec F S64x2048 .f32) (main_arg3 : FVec F S50257x2048 .f32) (main_arg4 : FVec F S64x4096 .f32) (main_arg5 : FVec F S64 .f32) (main_arg6 : FVec F S2048x4096 .f32) (main_arg7 : FVec F S2048 .f32) (main_arg8 : FVec F S6144x2048 .f32) (main_arg9 : FVec F S6144x2048 .f32) (main_arg10 : FVec F S6144 .f32) (main_arg11 : FVec F S6144 .f32) (main_arg12 : FVec F S50257x2048 .f32) (main_arg13 : FVec F S50257 .f32) : IVec S_ 1 :=
  let main_v0 : FVec F S1x1x2048 .f32 := Host.absf main_arg1
  let main_cst : FVec F S_ .f32 := constant S_ .f32 0x7F800000#32
  let main_v1 : FVec F S1x1x2048 .f32 := broadcastInDim S1x1x2048 ![] bcast_S_S1x1x2048 main_cst
  let main_v2 : IVec S1x1x2048 1 := cmpf .olt main_v0 main_v1
  let main_c : IVec S_ 1 := constantI S_ 1 1#1
  let main_v3 : IVec S_ 1 := (fun x v => Host.reduce IntOp.andi x v reducesTo_S1x1x2048_S_d0_1_2 h_S_) main_v2 main_c
  let main_v4 : FVec F S64x2048 .f32 := Host.absf main_arg2
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S50257x2048 .f32 := Host.absf main_arg3
  let main_cst_2 : FVec F S_ .f32 := constant S_ .f32 0x7F800000#32
  let main_v10 : FVec F S50257x2048 .f32 := broadcastInDim S50257x2048 ![] bcast_S_S50257x2048 main_cst_2
  let main_v11 : IVec S50257x2048 1 := cmpf .olt main_v9 main_v10
  let main_c_3 : IVec S_ 1 := constantI S_ 1 1#1
  let main_v12 : IVec S_ 1 := (fun x v => Host.reduce IntOp.andi x v reducesTo_S50257x2048_S_d0_1 h_S_) main_v11 main_c_3
  let main_v13 : IVec S_ 1 := andi main_v8 main_v12
  let main_v14 : FVec F S64x4096 .f32 := Host.absf main_arg4
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg0 main_arg5 main_arg6 main_arg7 main_arg8 main_arg9 main_arg10 main_arg11 main_arg12 main_arg13 main_v13 main_v16
-- ==== Kernel.lean ====
abbrev S1 : Shape := ⟨1, ![1]⟩
abbrev S1x1x2048 : Shape := ⟨3, ![1, 1, 2048]⟩
abbrev S64x2048 : Shape := ⟨2, ![64, 2048]⟩
abbrev S50257x2048 : Shape := ⟨2, ![50257, 2048]⟩
abbrev S64x4096 : Shape := ⟨2, ![64, 4096]⟩
abbrev S64 : Shape := ⟨1, ![64]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S50257 : Shape := ⟨1, ![50257]⟩
abbrev S1x2048 : Shape := ⟨2, ![1, 2048]⟩
abbrev S1x64 : Shape := ⟨2, ![1, 64]⟩
abbrev S_ : Shape := ⟨0, ![]⟩
abbrev S1x1 : Shape := ⟨2, ![1, 1]⟩
abbrev S1x4096 : Shape := ⟨2, ![1, 4096]⟩
abbrev S512x4096 : Shape := ⟨2, ![512, 4096]⟩
abbrev S1x512 : Shape := ⟨2, ![1, 512]⟩
abbrev S1x6144 : Shape := ⟨2, ![1, 6144]⟩
abbrev S512x2048 : Shape := ⟨2, ![512, 2048]⟩
abbrev S1x50257 : Shape := ⟨2, ![1, 50257]⟩
abbrev S1536x2048 : Shape := ⟨2, ![1536, 2048]⟩
abbrev S1x1536 : Shape := ⟨2, ![1, 1536]⟩

abbrev nBuf : Space → Nat
  | .hbm => 79
  | .vmem => 35
  | .smem => 1
  | _ => 0

abbrev bufTy : (tb : Table) → Fin (tcTables nBuf tb) → BufTy
  | .hbm, ⟨0, _⟩ => ⟨S1x1x2048, .f32⟩
  | .hbm, ⟨1, _⟩ => ⟨S64x2048, .f32⟩
  | .hbm, ⟨2, _⟩ => ⟨S50257x2048, .f32⟩
  | .hbm, ⟨3, _⟩ => ⟨S64x4096, .f32⟩
  | .hbm, ⟨4, _⟩ => ⟨S64, .f32⟩
  | .hbm, ⟨5, _⟩ => ⟨S2048x4096, .f32⟩
  | .hbm, ⟨6, _⟩ => ⟨S2048, .f32⟩
  | .hbm, ⟨7, _⟩ => ⟨S6144x2048, .f32⟩
  | .hbm, ⟨8, _⟩ => ⟨S6144x2048, .f32⟩
  | .hbm, ⟨9, _⟩ => ⟨S6144, .f32⟩
  | .hbm, ⟨10, _⟩ => ⟨S6144, .f32⟩
  | .hbm, ⟨11, _⟩ => ⟨S50257x2048, .f32⟩
  | .hbm, ⟨12, _⟩ => ⟨S50257, .f32⟩
  | .hbm, ⟨13, _⟩ => ⟨S1x2048, .f32⟩
  | .hbm, ⟨14, _⟩ => ⟨S1x64, .f32⟩
  | .hbm, ⟨15, _⟩ => ⟨S1x2048, .f32⟩
  | .hbm, ⟨16, _⟩ => ⟨S1x64, .f32⟩
  | .hbm, ⟨17, _⟩ => ⟨S1x2048, .f32⟩
  | .hbm, ⟨18, _⟩ => ⟨S1x4096, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S1x6144, .f32⟩
  | .hbm, ⟨25, _⟩ => ⟨S1x6144, .f32⟩
  | .hbm, ⟨26, _⟩ => ⟨S1x6144, .f32⟩
  | .hbm, ⟨27, _⟩ => ⟨S1x6144, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S_, .f32⟩
  | .hbm, ⟨38, _⟩ => ⟨S1x2048, .f32⟩
  | .hbm, ⟨39, _⟩ => ⟨S1x2048, .f32⟩
  | .hbm, ⟨40, _⟩ => ⟨S_, .f32⟩
  | .hbm, ⟨41, _⟩ => ⟨S1x2048, .f32⟩
  | .hbm, ⟨42, _⟩ => ⟨S1x2048, .f32⟩
  | .hbm, ⟨43, _⟩ => ⟨S1x2048, .f32⟩
  | .hbm, ⟨44, _⟩ => ⟨S1x2048, .f32⟩
  | .hbm, ⟨45, _⟩ => ⟨S1x2048, .f32⟩
  | .hbm, ⟨46, _⟩ => ⟨S_, .f32⟩
  | .hbm, ⟨47, _⟩ => ⟨S1x2048, .f32⟩
  | .hbm, ⟨48, _⟩ => ⟨S1x2048, .f32⟩
  | .hbm, ⟨49, _⟩ => ⟨S_, .f32⟩
  | .hbm, ⟨50, _⟩ => ⟨S1x2048, .f32⟩
  | .hbm, ⟨51, _⟩ => ⟨S1x2048, .f32⟩
  | .hbm, ⟨52, _⟩ => ⟨S1x2048, .f32⟩
  | .hbm, ⟨53, _⟩ => ⟨S1x2048, .f32⟩
  | .hbm, ⟨54, _⟩ => ⟨S1x2048, .f32⟩
  | .hbm, ⟨55, _⟩ => ⟨S_, .f32⟩
  | .hbm, ⟨56, _⟩ => ⟨S1x2048, .f32⟩
  | .hbm, ⟨57, _⟩ => ⟨S1x2048, .f32⟩
  | .hbm, ⟨58, _⟩ => ⟨S1x2048, .f32⟩
  | .hbm, ⟨59, _⟩ => ⟨S1x2048, .f32⟩
  | .hbm, ⟨60, _⟩ => ⟨S1x2048, .f32⟩
  | .hbm, ⟨61, _⟩ => ⟨S1x50257, .f32⟩
  | .hbm, ⟨62, _⟩ => ⟨S1x50257, .f32⟩
  | .hbm, ⟨63, _⟩ => ⟨S_, .f32⟩
  | .hbm, ⟨64, _⟩ => ⟨S1, .f32⟩
  | .hbm, ⟨65, _⟩ => ⟨S_, .f32⟩
  | .hbm, ⟨66, _⟩ => ⟨S1, .f32⟩
  | .hbm, ⟨67, _⟩ => ⟨S1, .f32⟩
  | .hbm, ⟨68, _⟩ => ⟨S1x1, .f32⟩
  | .hbm, ⟨69, _⟩ => ⟨S1x50257, .f32⟩
  | .hbm, ⟨70, _⟩ => ⟨S1x50257, .f32⟩
  | .hbm, ⟨71, _⟩ => ⟨S1x50257, .f32⟩
  | .hbm, ⟨72, _⟩ => ⟨S_, .f32⟩
  | .hbm, ⟨73, _⟩ => ⟨S1, .f32⟩
  | .hbm, ⟨74, _⟩ => ⟨S1x1, .f32⟩
  | .hbm, ⟨75, _⟩ => ⟨S1x1, .f32⟩
  | .hbm, ⟨76, _⟩ => ⟨S1x50257, .f32⟩
  | .hbm, ⟨77, _⟩ => ⟨S1x50257, .f32⟩
  | .hbm, ⟨78, _⟩ => ⟨S1x1x2048, .f32⟩
  | .local _ .vmem, ⟨0, _⟩ => ⟨S1x2048, .f32⟩
  | .local _ .vmem, ⟨1, _⟩ => ⟨S64x4096, .f32⟩
  | .local _ .vmem, ⟨2, _⟩ => ⟨S1x64, .f32⟩
  | .local _ .vmem, ⟨3, _⟩ => ⟨S64x2048, .f32⟩
  | .local _ .vmem, ⟨4, _⟩ => ⟨S1x2048, .f32⟩
  | .local _ .vmem, ⟨5, _⟩ => ⟨S1x64, .f32⟩
  | .local _ .vmem, ⟨6, _⟩ => ⟨S1x2048, .f32⟩
  | .local _ .vmem, ⟨7, _⟩ => ⟨S1x4096, .f32⟩
  | .local _ .vmem, ⟨8, _⟩ => ⟨S512x4096, .f32⟩
  | .local _ .vmem, ⟨9, _⟩ => ⟨S512x4096, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x2048, .f32⟩
  | .local _ .vmem, ⟨29, _⟩ => ⟨S1536x2048, .f32⟩
  | .local _ .vmem, ⟨30, _⟩ => ⟨S1536x2048, .f32⟩
  | .local _ .vmem, ⟨31, _⟩ => ⟨S1x1536, .f32⟩
  | .local _ .vmem, ⟨32, _⟩ => ⟨S1x1536, .f32⟩
  | .local _ .vmem, ⟨33, _⟩ => ⟨S1x1536, .f32⟩
  | .local _ .vmem, ⟨34, _⟩ => ⟨S1x1536, .f32⟩
  | .local _ .smem, ⟨0, _⟩ => ⟨S1, .i32⟩
  | _, _ => ⟨S1x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call0_cst : Ref sig .tc := ⟨.hbm, 21, rfl⟩
abbrev main_call0_v0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_1 : Ref sig .tc := ⟨.hbm, 46, rfl⟩
abbrev main_v26 : Ref sig .tc := ⟨.hbm, 47, rfl⟩
abbrev main_v27 : Ref sig .tc := ⟨.hbm, 48, rfl⟩
abbrev main_cst_2 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call1_cst : Ref sig .tc := ⟨.hbm, 63, rfl⟩
abbrev main_call1_v0 : Ref sig .tc := ⟨.hbm, 64, rfl⟩
abbrev main_call1_cst_0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_cst_1 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_v40 : Ref sig .tc := ⟨.hbm, 77, rfl⟩
abbrev main_v41 : Ref sig .tc := ⟨.hbm, 78, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24
abbrev cc2_sem6_0 : DmaSem sig := 25
abbrev cc2_sem6_1 : DmaSem sig := 26
abbrev cc2_sem7_0 : DmaSem sig := 27
abbrev cc2_sem7_1 : DmaSem sig := 28
abbrev cc3_sem0_0 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 2 → Nat :=
  let c0_i32_1 : BitVec 32 := 0#32
  ![v0.toNat, 0]

def k0_chk1 (v0 : BitVec 32) : Prop :=
  (∀ a, (k0_off1 v0) a + S1x2048.size a ≤ S50257x2048.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x2048.size a ≤ S50257x2048.size a := fun v0 k0_hw1 => k0_hw1

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![12], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![33], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1536x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1536 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1536 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S1x1x2048_S1x2048 : S1x1x2048.ShapeCasts S1x2048
  shapeCasts_S64_S1x64 : S64.ShapeCasts S1x64
  inb_S1_S1_0 : ∀ a, (![0] : Fin 1 → Nat) a + S1.size a ≤ S1.size a
  numel1_S1 : S1.numel = 1
  inb_S1x2048_S1x2048_0_0 : ∀ a, (![0, 0] : Fin 2 → Nat) a + S1x2048.size a ≤ S1x2048.size a
  squeezes_S1x2048_S2048 : S1x2048.Squeezes S2048
  h_S1x2048 : 0 < S1x2048.numel
  shapeCasts_S1x2048_S1x2048 : S1x2048.ShapeCasts S1x2048
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  slices_S64x4096_o0_0_S64x2048 : S64x4096.Slices ![0, 0] S64x2048
  slices_S64x4096_o0_2048_S64x2048 : S64x4096.Slices ![0, 2048] S64x2048
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S1x64_S1 : S1x64.Reduces [1] S1
  shapeCasts_S1_S1x1 : S1.ShapeCasts S1x1
  broadcasts_S1x1_S1x64 : S1x1.Broadcasts S1x64
  inb_S64x2048_S64x2048_0_0 : ∀ a, (![0, 0] : Fin 2 → Nat) a + S64x2048.size a ≤ S64x2048.size a
  h_S64x2048 : 0 < S64x2048.numel
  concatenates_S1x2048_S1x2048_S1x4096_d1 : Shape.Concatenates [S1x2048, S1x2048] S1x4096 1
  shapeCasts_S2048_S1x2048 : S2048.ShapeCasts S1x2048
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bcast_S_S1x2048 : S_.BroadcastsInDim S1x2048 (![] : Fin 0 → Fin S1x2048.rank)
  shapeCasts_S6144_S1x6144 : S6144.ShapeCasts S1x6144
  inb_S512x2048_S512x2048_0_0 : ∀ a, (![0, 0] : Fin 2 → Nat) a + S512x2048.size a ≤ S512x2048.size a
  h_S512x2048 : 0 < S512x2048.numel
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  shapeCasts_S50257_S1x50257 : S50257.ShapeCasts S1x50257
  inb_S1536x2048_S1536x2048_0_0 : ∀ a, (![0, 0] : Fin 2 → Nat) a + S1536x2048.size a ≤ S1536x2048.size a
  h_S1536x2048 : 0 < S1536x2048.numel
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  reducesTo_S1x50257_S1_d1 : S1x50257.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  bcast_S1x2048_S1x1x2048_1_2 : S1x2048.BroadcastsInDim S1x1x2048 (![1, 2] : Fin 2 → Fin S1x1x2048.rank)
  dot_S1x2048_S64x2048_S1x64_1_1_0_0_n_n_wf : DotDims.WF S1x2048 S64x2048 S1x64 [1] [1] [0] [0] [] []
  dot_S1x64_S64x2048_S1x2048_1_0_0_1_n_n_wf : DotDims.WF S1x64 S64x2048 S1x2048 [1] [0] [0] [1] [] []
  dot_S1x4096_S512x4096_S1x512_1_1_0_0_n_n_wf : DotDims.WF S1x4096 S512x4096 S1x512 [1] [1] [0] [0] [] []
  dot_S1x2048_S512x2048_S1x512_1_1_0_0_n_n_wf : DotDims.WF S1x2048 S512x2048 S1x512 [1] [1] [0] [0] [] []
  dot_S1x2048_S1536x2048_S1x1536_1_1_0_0_n_n_wf : DotDims.WF S1x2048 S1536x2048 S1x1536 [1] [1] [0] [0] [] []
  hcc0_scratch0 : 7 + S_.numel ≤ 36
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .f32 = 32 ∨ (Rect.block (s := S1x2048) S1x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S64x4096.size a ≤ S64x4096.size a
  hwx0_1 : ∀ i : grid0.Coords, EltTy.bits .f32 = 32 ∨ (Rect.block (s := S64x4096) S64x4096.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S1x64.size a ≤ S1x64.size a
  hwx0_2 : ∀ i : grid0.Coords, EltTy.bits .f32 = 32 ∨ (Rect.block (s := S1x64) S1x64.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S64x2048.size a ≤ S64x2048.size a
  hwx0_3 : ∀ i : grid0.Coords, EltTy.bits .f32 = 32 ∨ (Rect.block (s := S64x2048) S64x2048.size (cc0_transform_4 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_5 i = cc0_transform_5 i'
  hinb0_4 : ∀ (i : grid0.Coords) a, (cc0_transform_5 i a + 1) * S1x2048.size a ≤ S1x2048.size a
  hwx0_4 : ∀ i : grid0.Coords, EltTy.bits .f32 = 32 ∨ (Rect.block (s := S1x2048) S1x2048.size (cc0_transform_5 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_6 i = cc0_transform_6 i'
  hinb0_5 : ∀ (i : grid0.Coords) a, (cc0_transform_6 i a + 1) * S1x64.size a ≤ S1x64.size a
  hwx0_5 : ∀ i : grid0.Coords, EltTy.bits .f32 = 32 ∨ (Rect.block (s := S1x64) S1x64.size (cc0_transform_6 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_7 i = cc0_transform_7 i'
  hinb0_6 : ∀ (i : grid0.Coords) a, (cc0_transform_7 i a + 1) * S1x2048.size a ≤ S1x2048.size a
  hwx0_6 : ∀ i : grid0.Coords, EltTy.bits .f32 = 32 ∨ (Rect.block (s := S1x2048) S1x2048.size (cc0_transform_7 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S2048x4096.size a
  hwx1_1 : ∀ i : grid1.Coords, EltTy.bits .f32 = 32 ∨ (Rect.block (s := S2048x4096) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x2048.size a
  hwx1_3 : ∀ i : grid1.Coords, EltTy.bits .f32 = 32 ∨ (Rect.block (s := S1x2048) S1x512.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x2048.size a
  hwx2_0 : ∀ i : grid2.Coords, EltTy.bits .f32 = 32 ∨ (Rect.block (s := S1x2048) S1x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x2048.size a
  hwx2_1 : ∀ i : grid2.Coords, EltTy.bits .f32 = 32 ∨ (Rect.block (s := S1x2048) S1x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2048.size a ≤ S6144x2048.size a
  hwx2_2 : ∀ i : grid2.Coords, EltTy.bits .f32 = 32 ∨ (Rect.block (s := S6144x2048) S512x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S6144x2048.size a
  hwx2_3 : ∀ i : grid2.Coords, EltTy.bits .f32 = 32 ∨ (Rect.block (s := S6144x2048) S512x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x6144.size a
  hwx2_4 : ∀ i : grid2.Coords, EltTy.bits .f32 = 32 ∨ (Rect.block (s := S1x6144) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x6144.size a
  hwx2_5 : ∀ i : grid2.Coords, EltTy.bits .f32 = 32 ∨ (Rect.block (s := S1x6144) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x6144.size a
  hwx2_6 : ∀ i : grid2.Coords, EltTy.bits .f32 = 32 ∨ (Rect.block (s := S1x6144) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x512.size a ≤ S1x6144.size a
  hwx2_7 : ∀ i : grid2.Coords, EltTy.bits .f32 = 32 ∨ (Rect.block (s := S1x6144) S1x512.size (cc2_transform_7 i) (hinb2_7 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x2048.size a ≤ S1x2048.size a
  hwx3_0 : ∀ i : grid3.Coords, EltTy.bits .f32 = 32 ∨ (Rect.block (s := S1x2048) S1x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S1536x2048.size a < S50257x2048.size a
  hwx3_1 : ∀ i : grid3.Coords, EltTy.bits .f32 = 32 ∨ (Rect.unit (s := S50257x2048) (fun a => cc3_transform_1 i a * S1536x2048.size a) (fun a => (Pipeline.Clip.of (cc3_transform_1 i a) (S1536x2048.size a) (S50257x2048.size a)).extent (S1536x2048.size a)) fun a => Pipeline.Clip.inb (Pipeline.Clip.ok_of (hstart3_1 i a))).WholeWords (EltTy.packing .f32)
  hwxs3_1 : ∀ i : grid3.Coords, EltTy.bits .f32 = 32 ∨ (Rect.unit (s := S1536x2048) (fun _ => 0) (fun a => (Pipeline.Clip.of (cc3_transform_1 i a) (S1536x2048.size a) (S50257x2048.size a)).extent (S1536x2048.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S1x1536.size a < S1x50257.size a
  hwx3_2 : ∀ i : grid3.Coords, EltTy.bits .f32 = 32 ∨ (Rect.unit (s := S1x50257) (fun a => cc3_transform_2 i a * S1x1536.size a) (fun a => (Pipeline.Clip.of (cc3_transform_2 i a) (S1x1536.size a) (S1x50257.size a)).extent (S1x1536.size a)) fun a => Pipeline.Clip.inb (Pipeline.Clip.ok_of (hstart3_2 i a))).WholeWords (EltTy.packing .f32)
  hwxs3_2 : ∀ i : grid3.Coords, EltTy.bits .f32 = 32 ∨ (Rect.unit (s := S1x1536) (fun _ => 0) (fun a => (Pipeline.Clip.of (cc3_transform_2 i a) (S1x1536.size a) (S1x50257.size a)).extent (S1x1536.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hstart3_3 : ∀ (i : grid3.Coords) a, cc3_transform_3 i a * S1x1536.size a < S1x50257.size a
  hwx3_3 : ∀ i : grid3.Coords, EltTy.bits .f32 = 32 ∨ (Rect.unit (s := S1x50257) (fun a => cc3_transform_3 i a * S1x1536.size a) (fun a => (Pipeline.Clip.of (cc3_transform_3 i a) (S1x1536.size a) (S1x50257.size a)).extent (S1x1536.size a)) fun a => Pipeline.Clip.inb (Pipeline.Clip.ok_of (hstart3_3 i a))).WholeWords (EltTy.packing .f32)
  hwxs3_3 : ∀ i : grid3.Coords, EltTy.bits .f32 = 32 ∨ (Rect.unit (s := S1x1536) (fun _ => 0) (fun a => (Pipeline.Clip.of (cc3_transform_3 i a) (S1x1536.size a) (S1x50257.size a)).extent (S1x1536.size a)) fun a => (Nat.zero_add _).trans_le (Pipeline.Clip.extent_le (Pipeline.Clip.ok_of (hstart3_3 i a)))).WholeWords (EltTy.packing .f32)

variable [Facts₀]

abbrev cc0_scratch0 : DmaSems sig S_ := SemArray.consecutive 7 S_ hcc0_scratch0
def dot_S1x2048_S64x2048_S1x64_1_1_0_0_n_n : DotDims S1x2048 S64x2048 S1x64 where
  lhsContracting := [1]
  rhsContracting := [1]
  lhsNonContracting := [0]
  rhsNonContracting := [0]
  lhsBatch := []
  rhsBatch := []
  wf := dot_S1x2048_S64x2048_S1x64_1_1_0_0_n_n_wf
def dot_S1x64_S64x2048_S1x2048_1_0_0_1_n_n : DotDims S1x64 S64x2048 S1x2048 where
  lhsContracting := [1]
  rhsContracting := [0]
  lhsNonContracting := [0]
  rhsNonContracting := [1]
  lhsBatch := []
  rhsBatch := []
  wf := dot_S1x64_S64x2048_S1x2048_1_0_0_1_n_n_wf
def dot_S1x4096_S512x4096_S1x512_1_1_0_0_n_n : DotDims S1x4096 S512x4096 S1x512 where
  lhsContracting := [1]
  rhsContracting := [1]
  lhsNonContracting := [0]
  rhsNonContracting := [0]
  lhsBatch := []
  rhsBatch := []
  wf := dot_S1x4096_S512x4096_S1x512_1_1_0_0_n_n_wf
def dot_S1x2048_S512x2048_S1x512_1_1_0_0_n_n : DotDims S1x2048 S512x2048 S1x512 where
  lhsContracting := [1]
  rhsContracting := [1]
  lhsNonContracting := [0]
  rhsNonContracting := [0]
  lhsBatch := []
  rhsBatch := []
  wf := dot_S1x2048_S512x2048_S1x512_1_1_0_0_n_n_wf
def dot_S1x2048_S1536x2048_S1x1536_1_1_0_0_n_n : DotDims S1x2048 S1536x2048 S1x1536 where
  lhsContracting := [1]
  rhsContracting := [1]
  lhsNonContracting := [0]
  rhsNonContracting := [0]
  lhsBatch := []
  rhsBatch := []
  wf := dot_S1x2048_S1536x2048_S1x1536_1_1_0_0_n_n_wf

abbrev spec0_0 : Pipeline.WinSpec sig grid0.rank :=
  Pipeline.WinSpec.ofSpec (Memref.whole main_v0) S1x2048.size reads0_0 false true 1 stage0_0 sem0_0 nbuf0_0 hstage0_0

abbrev spec0_1 : Pipeline.WinSpec sig grid0.rank :=
  Pipeline.WinSpec.ofSpec (Memref.whole main_arg4) S64x4096.size reads0_1 false true 1 stage0_1 sem0_1 nbuf0_1 hstage0_1

abbrev spec0_2 : Pipeline.WinSpec sig grid0.rank :=
  Pipeline.WinSpec.ofSpec (Memref.whole main_v1) S1x64.size reads0_2 false true 1 stage0_2 sem0_2 nbuf0_2 hstage0_2

abbrev spec0_3 : Pipeline.WinSpec sig grid0.rank :=
  Pipeline.WinSpec.ofSpec (Memref.whole main_arg2) S64x2048.size reads0_3 false true 1 stage0_3 sem0_3 nbuf0_3 hstage0_3

abbrev spec0_4 : Pipeline.WinSpec sig grid0.rank :=
  Pipeline.WinSpec.ofSpec (Memref.whole main_v2_0) S1x2048.size reads0_4 true true 1 stage0_4 sem0_4 nbuf0_4 hstage0_4

abbrev spec0_5 : Pipeline.WinSpec sig grid0.rank :=
  Pipeline.WinSpec.ofSpec (Memref.whole main_v2_1) S1x64.size reads0_5 true true 1 stage0_5 sem0_5 nbuf0_5 hstage0_5

abbrev spec0_6 : Pipeline.WinSpec sig grid0.rank :=
  Pipeline.WinSpec.ofSpec (Memref.whole main_v2_2) S1x2048.size reads0_6 true true 1 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_2 | 2 => cc0_transform_3 | 3 => cc0_transform_4 | 4 => cc0_transform_5 | 5 => cc0_transform_6 | 6 => cc0_transform_7 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))
abbrev win1_0 : Pipeline.Window sig grid1 :=
  Pipeline.Window.ofSpec (Memref.whole main_v3) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S1x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S512x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S512x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v8) S1x512.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v9_0) S1x512.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v9_1) S1x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v37) S1x2048.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpecClip (Memref.whole main_arg12) S1536x2048.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v38) S1x1536.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v39) S1x1536.size cc3_transform_3 reads3_3 true false 2 stage3_3 sem3_3
    hrank3 hreads3_3 hstart3_3 nbuf3_3 (Memref.isWhole_whole _) hwx3_3 hwxs3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where
  harr0 : ∀ w, (spec0 w).arr.IsWhole

variable [Facts]
-- ==== ReferenceIdeal.lean ====
abbrev S1 : Shape := ⟨1, ![1]⟩
abbrev S1x1x2048 : Shape := ⟨3, ![1, 1, 2048]⟩
abbrev S64x2048 : Shape := ⟨2, ![64, 2048]⟩
abbrev S50257x2048 : Shape := ⟨2, ![50257, 2048]⟩
abbrev S64x4096 : Shape := ⟨2, ![64, 4096]⟩
abbrev S64 : Shape := ⟨1, ![64]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S50257 : Shape := ⟨1, ![50257]⟩
abbrev S_ : Shape := ⟨0, ![]⟩
abbrev S1x1 : Shape := ⟨2, ![1, 1]⟩
abbrev S1x2048 : Shape := ⟨2, ![1, 2048]⟩
abbrev S1x4096 : Shape := ⟨2, ![1, 4096]⟩
abbrev S4096x64 : Shape := ⟨2, ![4096, 64]⟩
abbrev S1x64 : Shape := ⟨2, ![1, 64]⟩
abbrev S4096x2048 : Shape := ⟨2, ![4096, 2048]⟩
abbrev S2048x6144 : Shape := ⟨2, ![2048, 6144]⟩
abbrev S1x6144 : Shape := ⟨2, ![1, 6144]⟩
abbrev S2048x50257 : Shape := ⟨2, ![2048, 50257]⟩
abbrev S1x50257 : Shape := ⟨2, ![1, 50257]⟩

abbrev nBuf : Space → Nat
  | .hbm => 113
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S64x2048, .f32⟩
  | .hbm, ⟨3, _⟩ => ⟨S50257x2048, .f32⟩
  | .hbm, ⟨4, _⟩ => ⟨S64x4096, .f32⟩
  | .hbm, ⟨5, _⟩ => ⟨S64, .f32⟩
  | .hbm, ⟨6, _⟩ => ⟨S2048x4096, .f32⟩
  | .hbm, ⟨7, _⟩ => ⟨S2048, .f32⟩
  | .hbm, ⟨8, _⟩ => ⟨S6144x2048, .f32⟩
  | .hbm, ⟨9, _⟩ => ⟨S6144x2048, .f32⟩
  | .hbm, ⟨10, _⟩ => ⟨S6144, .f32⟩
  | .hbm, ⟨11, _⟩ => ⟨S6144, .f32⟩
  | .hbm, ⟨12, _⟩ => ⟨S50257x2048, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x2048, .f32⟩
  | .hbm, ⟨23, _⟩ => ⟨S1x2048, .f32⟩
  | .hbm, ⟨24, _⟩ => ⟨S1x4096, .f32⟩
  | .hbm, ⟨25, _⟩ => ⟨S4096x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x64, .f32⟩
  | .hbm, ⟨42, _⟩ => ⟨S1x64, .f32⟩
  | .hbm, ⟨43, _⟩ => ⟨S1x2048, .f32⟩
  | .hbm, ⟨44, _⟩ => ⟨S1x4096, .f32⟩
  | .hbm, ⟨45, _⟩ => ⟨S4096x2048, .f32⟩
  | .hbm, ⟨46, _⟩ => ⟨S1x2048, .f32⟩
  | .hbm, ⟨47, _⟩ => ⟨S1x2048, .f32⟩
  | .hbm, ⟨48, _⟩ => ⟨S1x2048, .f32⟩
  | .hbm, ⟨49, _⟩ => ⟨S_, .f32⟩
  | .hbm, ⟨50, _⟩ => ⟨S1x2048, .f32⟩
  | .hbm, ⟨51, _⟩ => ⟨S1x2048, .f32⟩
  | .hbm, ⟨52, _⟩ => ⟨S2048x6144, .f32⟩
  | .hbm, ⟨53, _⟩ => ⟨S1x6144, .f32⟩
  | .hbm, ⟨54, _⟩ => ⟨S1x6144, .f32⟩
  | .hbm, ⟨55, _⟩ => ⟨S1x6144, .f32⟩
  | .hbm, ⟨56, _⟩ => ⟨S2048x6144, .f32⟩
  | .hbm, ⟨57, _⟩ => ⟨S1x6144, .f32⟩
  | .hbm, ⟨58, _⟩ => ⟨S1x6144, .f32⟩
  | .hbm, ⟨59, _⟩ => ⟨S1x6144, .f32⟩
  | .hbm, ⟨60, _⟩ => ⟨S1x2048, .f32⟩
  | .hbm, ⟨61, _⟩ => ⟨S1x2048, .f32⟩
  | .hbm, ⟨62, _⟩ => ⟨S1x2048, .f32⟩
  | .hbm, ⟨63, _⟩ => ⟨S1x2048, .f32⟩
  | .hbm, ⟨64, _⟩ => ⟨S1x2048, .f32⟩
  | .hbm, ⟨65, _⟩ => ⟨S1x2048, .f32⟩
  | .hbm, ⟨66, _⟩ => ⟨S1x2048, .f32⟩
  | .hbm, ⟨67, _⟩ => ⟨S1x2048, .f32⟩
  | .hbm, ⟨68, _⟩ => ⟨S1x2048, .f32⟩
  | .hbm, ⟨69, _⟩ => ⟨S_, .f32⟩
  | .hbm, ⟨70, _⟩ => ⟨S1x2048, .f32⟩
  | .hbm, ⟨71, _⟩ => ⟨S1x2048, .f32⟩
  | .hbm, ⟨72, _⟩ => ⟨S_, .f32⟩
  | .hbm, ⟨73, _⟩ => ⟨S1x2048, .f32⟩
  | .hbm, ⟨74, _⟩ => ⟨S1x2048, .f32⟩
  | .hbm, ⟨75, _⟩ => ⟨S1x2048, .f32⟩
  | .hbm, ⟨76, _⟩ => ⟨S1x2048, .f32⟩
  | .hbm, ⟨77, _⟩ => ⟨S1x2048, .f32⟩
  | .hbm, ⟨78, _⟩ => ⟨S_, .f32⟩
  | .hbm, ⟨79, _⟩ => ⟨S1x2048, .f32⟩
  | .hbm, ⟨80, _⟩ => ⟨S1x2048, .f32⟩
  | .hbm, ⟨81, _⟩ => ⟨S_, .f32⟩
  | .hbm, ⟨82, _⟩ => ⟨S1x2048, .f32⟩
  | .hbm, ⟨83, _⟩ => ⟨S1x2048, .f32⟩
  | .hbm, ⟨84, _⟩ => ⟨S1x2048, .f32⟩
  | .hbm, ⟨85, _⟩ => ⟨S1x2048, .f32⟩
  | .hbm, ⟨86, _⟩ => ⟨S1x2048, .f32⟩
  | .hbm, ⟨87, _⟩ => ⟨S_, .f32⟩
  | .hbm, ⟨88, _⟩ => ⟨S1x2048, .f32⟩
  | .hbm, ⟨89, _⟩ => ⟨S1x2048, .f32⟩
  | .hbm, ⟨90, _⟩ => ⟨S1x2048, .f32⟩
  | .hbm, ⟨91, _⟩ => ⟨S1x2048, .f32⟩
  | .hbm, ⟨92, _⟩ => ⟨S1x2048, .f32⟩
  | .hbm, ⟨93, _⟩ => ⟨S2048x50257, .f32⟩
  | .hbm, ⟨94, _⟩ => ⟨S1x50257, .f32⟩
  | .hbm, ⟨95, _⟩ => ⟨S1x50257, .f32⟩
  | .hbm, ⟨96, _⟩ => ⟨S1x50257, .f32⟩
  | .hbm, ⟨97, _⟩ => ⟨S_, .f32⟩
  | .hbm, ⟨98, _⟩ => ⟨S1, .f32⟩
  | .hbm, ⟨99, _⟩ => ⟨S_, .f32⟩
  | .hbm, ⟨100, _⟩ => ⟨S1, .f32⟩
  | .hbm, ⟨101, _⟩ => ⟨S1, .f32⟩
  | .hbm, ⟨102, _⟩ => ⟨S1x1, .f32⟩
  | .hbm, ⟨103, _⟩ => ⟨S1x50257, .f32⟩
  | .hbm, ⟨104, _⟩ => ⟨S1x50257, .f32⟩
  | .hbm, ⟨105, _⟩ => ⟨S1x50257, .f32⟩
  | .hbm, ⟨106, _⟩ => ⟨S_, .f32⟩
  | .hbm, ⟨107, _⟩ => ⟨S1, .f32⟩
  | .hbm, ⟨108, _⟩ => ⟨S1x1, .f32⟩
  | .hbm, ⟨109, _⟩ => ⟨S1x1, .f32⟩
  | .hbm, ⟨110, _⟩ => ⟨S1x50257, .f32⟩
  | .hbm, ⟨111, _⟩ => ⟨S1x50257, .f32⟩
  | .hbm, ⟨112, _⟩ => ⟨S1x1x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_call1_cst_0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_cst_1 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x2048_S1x2048 : S1x1x2048.ShapeCasts S1x2048
  concatenates_S1x2048_S1x2048_S1x4096_d1 : Shape.Concatenates [S1x2048, S1x2048] S1x4096 1
  transposes_S64x4096_S4096x64_1_0 : S64x4096.Transposes [1, 0] S4096x64
  bcast_S64_S1x64_1 : S64.BroadcastsInDim S1x64 (![1] : Fin 1 → Fin S1x64.rank)
  reducesTo_S1x64_S1_d1 : S1x64.ReducesTo [1] S1
  h_S_ : 0 < S_.numel
  bcast_S1x1_S1x64_0_1 : S1x1.BroadcastsInDim S1x64 (![0, 1] : Fin 2 → Fin S1x64.rank)
  transposes_S2048x4096_S4096x2048_1_0 : S2048x4096.Transposes [1, 0] S4096x2048
  bcast_S2048_S1x2048_1 : S2048.BroadcastsInDim S1x2048 (![1] : Fin 1 → Fin S1x2048.rank)
  bcast_S_S1x2048 : S_.BroadcastsInDim S1x2048 (![] : Fin 0 → Fin S1x2048.rank)
  transposes_S6144x2048_S2048x6144_1_0 : S6144x2048.Transposes [1, 0] S2048x6144
  bcast_S6144_S1x6144_1 : S6144.BroadcastsInDim S1x6144 (![1] : Fin 1 → Fin S1x6144.rank)
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  transposes_S50257x2048_S2048x50257_1_0 : S50257x2048.Transposes [1, 0] S2048x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x2048_S1x1x2048_1_2 : S1x2048.BroadcastsInDim S1x1x2048 (![1, 2] : Fin 2 → Fin S1x1x2048.rank)
  gather_S50257x2048_S1x1_S1x2048_1_0_n_n_0_1_12048_wf : GatherDims.WF S50257x2048 S1x1 S1x2048 [1] [0] [] [0] [] 1 ![1, 2048]
  dot_S1x4096_S4096x64_S1x64_1_0_0_1_n_n_wf : DotDims.WF S1x4096 S4096x64 S1x64 [1] [0] [0] [1] [] []
  dot_S1x64_S64x2048_S1x2048_1_0_0_1_n_n_wf : DotDims.WF S1x64 S64x2048 S1x2048 [1] [0] [0] [1] [] []
  dot_S1x4096_S4096x2048_S1x2048_1_0_0_1_n_n_wf : DotDims.WF S1x4096 S4096x2048 S1x2048 [1] [0] [0] [1] [] []
  dot_S1x2048_S2048x6144_S1x6144_1_0_0_1_n_n_wf : DotDims.WF S1x2048 S2048x6144 S1x6144 [1] [0] [0] [1] [] []
  dot_S1x2048_S2048x50257_S1x50257_1_0_0_1_n_n_wf : DotDims.WF S1x2048 S2048x50257 S1x50257 [1] [0] [0] [1] [] []

variable [Facts₀]

def gather_S50257x2048_S1x1_S1x2048_1_0_n_n_0_1_12048 : GatherDims S50257x2048 S1x1 S1x2048 where
  offsetDims := [1]
  collapsedSliceDims := [0]
  operandBatchingDims := []
  startIndicesBatchingDims := []
  startIndexMap := [0]
  indexVectorDim := 1
  sliceSizes := ![1, 2048]
  wf := gather_S50257x2048_S1x1_S1x2048_1_0_n_n_0_1_12048_wf
def dot_S1x4096_S4096x64_S1x64_1_0_0_1_n_n : DotDims S1x4096 S4096x64 S1x64 where
  lhsContracting := [1]
  rhsContracting := [0]
  lhsNonContracting := [0]
  rhsNonContracting := [1]
  lhsBatch := []
  rhsBatch := []
  wf := dot_S1x4096_S4096x64_S1x64_1_0_0_1_n_n_wf
def dot_S1x64_S64x2048_S1x2048_1_0_0_1_n_n : DotDims S1x64 S64x2048 S1x2048 where
  lhsContracting := [1]
  rhsContracting := [0]
  lhsNonContracting := [0]
  rhsNonContracting := [1]
  lhsBatch := []
  rhsBatch := []
  wf := dot_S1x64_S64x2048_S1x2048_1_0_0_1_n_n_wf
def dot_S1x4096_S4096x2048_S1x2048_1_0_0_1_n_n : DotDims S1x4096 S4096x2048 S1x2048 where
  lhsContracting := [1]
  rhsContracting := [0]
  lhsNonContracting := [0]
  rhsNonContracting := [1]
  lhsBatch := []
  rhsBatch := []
  wf := dot_S1x4096_S4096x2048_S1x2048_1_0_0_1_n_n_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x50257_S1x50257_1_0_0_1_n_n : DotDims S1x2048 S2048x50257 S1x50257 where
  lhsContracting := [1]
  rhsContracting := [0]
  lhsNonContracting := [0]
  rhsNonContracting := [1]
  lhsBatch := []
  rhsBatch := []
  wf := dot_S1x2048_S2048x50257_S1x50257_1_0_0_1_n_n_wf

class Facts : Prop extends Facts₀ where

variable [Facts]
-- ==== Proof.KernelIdeal.R1.lean ====
import proofs.«418227_j23983097381305_3_alg».proof.Proof.Gen.KernelIdeal.Launch
import proofs.«418227_j23983097381305_3_alg».proof.Proof.Gen.KernelIdeal.Skeleton
import proofs.«418227_j23983097381305_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S1x4096 := Rect.unit (s := S1x4096) ![0, 0] S1x4096.size inb_S1x4096_S1x4096_0_0
abbrev r1_w : Rect S512x4096 := Rect.unit (s := S512x4096) ![0, 0] S512x4096.size inb_S512x4096_S512x4096_0_0
abbrev r1_b : Rect S1x512 := Rect.unit (s := S1x512) ![0, 0] S1x512.size inb_S1x512_S1x512_0_0

def out1_3 (x0 : Vec F S1x4096 .f32) (x1 : Vec F S512x4096 .f32) (x2 : Vec F S1x512 .f32) : Vec F S1x512 .f32 :=
  View.canon [⟨r1_b, k1_pay1 (View.ld x0 r1_x) (View.ld x1 r1_w) (View.ld x2 r1_b)⟩]

theorem cover1_3 (p0 : Vec F S1x512 .f32) (y : S1x512.Idx) :
    ∃ pc ∈ ([⟨r1_b, p0⟩] : List (View.Piece (Elt F) S1x512 .f32)), y ∈ pc.1.set :=
  View.cover_of_tiled [⟨r1_b, p0⟩] S1x512.size (by rfl) y

set_option maxHeartbeats 1000000 in

theorem sound_kernel1 (c : Dev nD) (E : Set ℕ) (i : grid1.Coords) (arg1 : Memref sig .tc .vmem S1x4096 .f32) (harg1 : arg1.IsWhole)
    (arg2 : Memref sig .tc .vmem S512x4096 .f32) (harg2 : arg2.IsWhole) (arg3 : Memref sig .tc .vmem S1x512 .f32) (harg3 : arg3.IsWhole)
    (arg4 : Memref sig .tc .vmem S1x512 .f32) (harg4 : arg4.IsWhole)
    (x0 : Vec F S1x4096 .f32) (x1 : Vec F S512x4096 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.R2.lean ====
import proofs.«418227_j23983097381305_3_alg».proof.Proof.Gen.KernelIdeal.Launch
import proofs.«418227_j23983097381305_3_alg».proof.Proof.Gen.KernelIdeal.Skeleton
import proofs.«418227_j23983097381305_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S1x2048 := Rect.unit (s := S1x2048) ![0, 0] S1x2048.size inb_S1x2048_S1x2048_0_0
abbrev r2_w : Rect S512x2048 := Rect.unit (s := S512x2048) ![0, 0] S512x2048.size inb_S512x2048_S512x2048_0_0
abbrev r2_b : Rect S1x512 := Rect.unit (s := S1x512) ![0, 0] S1x512.size inb_S1x512_S1x512_0_0

def out2_6 (x0 : Vec F S1x2048 .f32) (x2 : Vec F S512x2048 .f32) (x4 : Vec F S1x512 .f32) : Vec F S1x512 .f32 :=
  View.canon [⟨r2_b, k2_pay1 (View.ld x0 r2_x) (View.ld x2 r2_w) (View.ld x4 r2_b)⟩]

def out2_7 (x1 : Vec F S1x2048 .f32) (x3 : Vec F S512x2048 .f32) (x5 : Vec F S1x512 .f32) : Vec F S1x512 .f32 :=
  View.canon [⟨r2_b, k2_pay2 (View.ld x1 r2_x) (View.ld x3 r2_w) (View.ld x5 r2_b)⟩]

theorem cover2_o (p0 : Vec F S1x512 .f32) (y : S1x512.Idx) :
    ∃ pc ∈ ([⟨r2_b, p0⟩] : List (View.Piece (Elt F) S1x512 .f32)), y ∈ pc.1.set :=
  View.cover_of_tiled [⟨r2_b, p0⟩] S1x512.size (by rfl) y

set_option maxHeartbeats 1000000 in

theorem sound_kernel2 (c : Dev nD) (E : Set ℕ) (i : grid2.Coords)
    (arg1 : Memref sig .tc .vmem S1x2048 .f32) (harg1 : arg1.IsWhole) (arg2 : Memref sig .tc .vmem S1x2048 .f32) (harg2 : arg2.IsWhole)
    (arg3 : Memref sig .tc .vmem S512x2048 .f32) (harg3 : arg3.IsWhole) (arg4 : Memref sig .tc .vmem S512x2048 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (x0 x1 : Vec F S1x2048 .f32) (x2 x3 : Vec F S512x2048 .f32) (x4 x5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x2 x4) ∗ owns (c : Thread nD τ) arg8 fullShare (out2_7 x1 x3 x5)) -∗ K ⟨⟩))
      ⊢ wp frame (wpE (defs₀ (F := F)) Variants.none c none) E
          (cc2__gru_gates_kernel i arg1 harg1 arg2 harg2 arg3 harg3 arg4 harg4 arg5 harg5 arg6 harg6 arg7 harg7 arg8 harg8) K := by
  simp only [cc2__gru_gates_kernel_eq_skeleton]; unfold cc2__gru_gates_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_o _)
  iexists _; isplitr
  swap; · iexact H7
  ipureintro
  exact View.read_writes_eq_canon _ _ _ (cover2_o _)

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 2 t) (iblk2 V c 4 t)
    | ⟨7, _⟩ => out2_7 (iblk2 V c 1 t) (iblk2 V c 3 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 2 t) (iblk2 V c 4 t) := by dsimp only [dat2]
theorem after2_7 (c : Dev nD) (t : Fin cfg2.N) :
    (dat2 V c).after 7 t = out2_7 (iblk2 V c 1 t) (iblk2 V c 3 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.LibRowDot.lean ====
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.ValueIdx
open scoped BigOperators

/-- Two rank-2 indices with the same two coordinates are equal. -/
theorem idx2_ext {n0 n1 : Nat} {i i' : (⟨2, ![n0, n1]⟩ : Shape).Idx} (h0 : (i 0).val = (i' 0).val) (h1 : (i 1).val = (i' 1).val) : i = i' :=
  funext fun a => Fin.ext (by
    match a with
    | ⟨0, _⟩ => exact h0
    | ⟨1, _⟩ => exact h1)

/-- The pair of zeros is the constant zero function. -/
theorem off00 : (![0, 0] : Fin 2 → Nat) = fun _ => 0 := funext fun a => by fin_cases a <;> rfl

/-- A product into zero of an M×K array with the transpose of an N×K array, at (p, q): row p against row q, summed over the K contracted positions. -/
theorem matmulT_apply {M K N : Nat} {φ₁ φ₂ : FTy} (prec : Option ContractPrecision) (x : FVec Ideal ⟨2, ![M, K]⟩ φ₁) (w : FVec Ideal ⟨2, ![N, K]⟩ φ₂) (p : Fin M) (q : Fin N) :
    FloatOps.matmul (DotDims.transposedRhs M K N) prec x w (constant ⟨2, ![M, N]⟩ .f32 0x00000000#32) (ix2 p q) = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  rw [show (DotDims.transposedRhs M K N).lhsIdx (ix2 p q) ((contrEquiv1 (DotDims.transposedRhs M K N) K rfl rfl).symm k) = ix2 p k from
      idx2_ext rfl (((DotDims.transposedRhs M K N).lhsIdx_val_of_single rfl _ _).trans hk),
    show (DotDims.transposedRhs M K N).rhsIdx (ix2 p q) ((contrEquiv1 (DotDims.transposedRhs M K N) K rfl rfl).symm k) = ix2 q k from
      idx2_ext rfl (((DotDims.transposedRhs M K N).rhsIdx_val_of_single rfl _ _).trans hk)]

/-- The row x · Wᵀ + b: entry (0, j) is the sum over k of x(0,k)·W(j,k), plus b(0,j). -/
def rowLin {K n : Nat} (x : (⟨2, ![1, K]⟩ : Shape).Idx → EReal) (W : (⟨2, ![n, K]⟩ : Shape).Idx → EReal) (b : (⟨2, ![1, n]⟩ : Shape).Idx → EReal) :
    (⟨2, ![1, n]⟩ : Shape).Idx → EReal :=
  fun i => (∑ k : Fin K, x (ix2 (0 : Fin 1) k) * W (ix2 (⟨(i 1).val, idx2_lt1 i⟩ : Fin n) k)) + b i

/-- A row array that reads as that sum at every column is the row x · Wᵀ + b. -/
theorem rowLin_eq {K n : Nat} (x : (⟨2, ![1, K]⟩ : Shape).Idx → EReal) (W : (⟨2, ![n, K]⟩ : Shape).Idx → EReal) (b R : (⟨2, ![1, n]⟩ : Shape).Idx → EReal)
    (h : ∀ J : Fin n, R (ix2 (0 : Fin 1) J) = (∑ k : Fin K, x (ix2 (0 : Fin 1) k) * W (ix2 J k)) + b (ix2 (0 : Fin 1) J)) : rowLin x W b = R := by
  funext i
  obtain ⟨p, J, rfl⟩ : ∃ (p : Fin 1) (J : Fin n), i = ix2 p J := ⟨i 0, i 1, eq_ix2 i⟩
  obtain rfl : p = 0 := Subsingleton.elim _ _
  exact (h J).symm

/-- Column j of a one-row array lies in the block of width B numbered j / B, also when that block is cut at the array's end. -/
theorem row_cover {M : Nat} (B : Nat) (i : (⟨2, ![1, M]⟩ : Shape).Idx) (ix xs : Fin 2 → Nat) (h0 : ix 0 = 0) (h1 : ix 1 = (i 1).val / B)
    (x0 : xs 0 = 1) (x1 : (i 1).val < (i 1).val / B * B + xs 1) (a : Fin 2) :
    ix a * (![1, B] : Fin 2 → Nat) a ≤ (i a).val ∧ (i a).val < ix a * (![1, B] : Fin 2 → Nat) a + xs a := by
  have hi0 : (i 0).val < 1 := (i 0).isLt
  have hd := Nat.div_mul_le_self (i 1).val B
  match a with
  | ⟨0, _⟩ => show ix 0 * 1 ≤ (i 0).val ∧ (i 0).val < ix 0 * 1 + xs 0; omega
  | ⟨1, _⟩ => show ix 1 * B ≤ (i 1).val ∧ (i 1).val < ix 1 * B + xs 1; rw [h1]; exact ⟨hd, x1⟩

end Cert.KernelIdeal.Hand

end
-- ==== Proof.KernelIdeal.R3.lean ====
import proofs.«418227_j23983097381305_3_alg».proof.Proof.Gen.KernelIdeal.Launch
import proofs.«418227_j23983097381305_3_alg».proof.Proof.Gen.KernelIdeal.Skeleton
import proofs.«418227_j23983097381305_3_alg».proof.Proof.Gen.KernelIdeal.Points
import proofs.«418227_j23983097381305_3_alg».proof.Proof.LibRowDot
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix1 ix2 eq_ix2)

local notation "𝕄" => MT nD τ sig Unit (Elt Ideal) ℕ (Pipeline.UD sig nD τ) ℕ

abbrev r3_x : Rect S1x2048 := Rect.unit (s := S1x2048) ![0, 0] S1x2048.size inb_S1x2048_S1x2048_0_0
abbrev r3_w : Rect S1536x2048 := Rect.unit (s := S1536x2048) ![0, 0] S1536x2048.size inb_S1536x2048_S1536x2048_0_0
abbrev r3_b : Rect S1x1536 := Rect.unit (s := S1x1536) ![0, 0] S1x1536.size inb_S1x1536_S1x1536_0_0

def out3_3 (x0 : Vec Ideal S1x2048 .f32) (x1 : Vec Ideal S1536x2048 .f32) (x2 : Vec Ideal S1x1536 .f32) : Vec Ideal S1x1536 .f32 :=
  View.canon [⟨r3_b, k3_pay1 (View.ld x0 r3_x) (View.ld x1 r3_w) (View.ld x2 r3_b)⟩]

theorem cover3_3 (p0 : Vec Ideal S1x1536 .f32) (y : S1x1536.Idx) :
    ∃ pc ∈ ([⟨r3_b, p0⟩] : List (View.Piece (Elt Ideal) S1x1536 .f32)), y ∈ pc.1.set :=
  View.cover_of_tiled [⟨r3_b, p0⟩] S1x1536.size (by rfl) y

set_option maxHeartbeats 1000000 in

theorem sound_kernel3 (c : Dev nD) (E : Set ℕ) (i : grid3.Coords) (arg1 : Memref sig .tc .vmem S1x2048 .f32) (harg1 : arg1.IsWhole)
    (arg2 : Memref sig .tc .vmem S1536x2048 .f32) (harg2 : arg2.IsWhole) (arg3 : Memref sig .tc .vmem S1x1536 .f32) (harg3 : arg3.IsWhole)
    (arg4 : Memref sig .tc .vmem S1x1536 .f32) (harg4 : arg4.IsWhole)
    (x0 : Vec Ideal S1x2048 .f32) (x1 : Vec Ideal S1536x2048 .f32) (x2 : Vec Ideal S1x1536 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := Ideal)) Variants.none c none) E (cc3__dense_kernel (F := Ideal) i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

theorem pay3_apply (v0 : Vec Ideal S1x2048 .f32) (v3 : Vec Ideal S1536x2048 .f32) (v6 : Vec Ideal S1x1536 .f32) (q : Fin 1536) :
    k3_pay1 (F := Ideal) v0 v3 v6 (ix2 (0 : Fin 1) q)
      = (∑ k : Fin 2048, v0 (ix2 (0 : Fin 1) k) * v3 (ix2 q k)) + v6 (ix2 (0 : Fin 1) q) := by
  unfold k3_pay1
  rw [ValueIdx.addf_apply, shapeCast_self, shapeCast_self]
  exact congrArg (· + _) (matmulT_apply none _ _ 0 q)

theorem out3_3_apply (x0 : Vec Ideal S1x2048 .f32) (x1 : Vec Ideal S1536x2048 .f32) (x2 : Vec Ideal S1x1536 .f32) (q : Fin 1536) :
    out3_3 x0 x1 x2 (ix2 (0 : Fin 1) q) = (∑ k : Fin 2048, x0 (ix2 (0 : Fin 1) k) * x1 (ix2 q k)) + x2 (ix2 (0 : Fin 1) q) := by
  unfold out3_3
  rw [View.canon_unit_zero off00, View.ld_unit_zero (S := S1x2048) off00, View.ld_unit_zero (S := S1536x2048) off00,
    View.ld_unit_zero (S := S1x1536) off00]
  exact pay3_apply x0 x1 x2 q

theorem out3_3_congr (x0 : Vec Ideal S1x2048 .f32) (x1 x1' : Vec Ideal S1536x2048 .f32) (x2 x2' : Vec Ideal S1x1536 .f32) (q : Fin 1536)
    (h1 : ∀ k : Fin 2048, x1 (ix2 q k) = x1' (ix2 q k)) (h2 : x2 (ix2 (0 : Fin 1) q) = x2' (ix2 (0 : Fin 1) q)) :
    out3_3 x0 x1 x2 (ix2 (0 : Fin 1) q) = out3_3 x0 x1' x2' (ix2 (0 : Fin 1) q) := by
  rw [out3_3_apply, out3_3_apply, h2]
  exact congrArg (· + x2' (ix2 (0 : Fin 1) q)) (Finset.sum_congr rfl fun k _ => by rw [h1 k])

variable (V : (c : Dev nD) → (b : Ref sig .tc) → Buf (Elt Ideal) ((c : Thread nD τ).loc b))

def iblk3 (c : Dev nD) (w : Fin cfg3.W) (t : Fin cfg3.N) : ((cfg3.win w).xblock (cfg3.grid.coords t)).Idx → Elt Ideal (cfg3.win w).elt :=
  ((cfg3.win w).blk t).view.read (Elt Ideal) (V c (Pipeline.arrRef spec3 w))

def fblk3_1 (c : Dev nD) (t : Fin cfg3.N) : Vec Ideal S1536x2048 .f32 :=
  (cfg3.win 1).fill (cfg3.grid.coords t) (fun _ => FloatOps.ofBits (F := Ideal) .f32 0#32) (iblk3 V c 1 t)
def fblk3_2 (c : Dev nD) (t : Fin cfg3.N) : Vec Ideal S1x1536 .f32 :=
  (cfg3.win 2).fill (cfg3.grid.coords t) (fun _ => FloatOps.ofBits (F := Ideal) .f32 0#32) (iblk3 V c 2 t)

theorem before3_0_of {c : Dev nD} (dat : Dat τ (Elt Ideal) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt Ideal) Unit ℕ (Pipeline.UD sig nD τ) ℕ cfg3 c) (hA : dat.A 1 = V c (Pipeline.arrRef spec3 1))
    (t : Fin cfg3.N) (d) : dat.before 1 t d = (cfg3.win 1).fill (cfg3.grid.coords t) d (iblk3 V c 1 t) :=
  (dat.before_fetched 1 t (fetch3_1 t) d).trans (by unfold Dat.fetched Dat.blockOf iblk3; rw [hA])
theorem before3_2_of {c : Dev nD} (dat : Dat τ (Elt Ideal) Unit ℕ (Pipeline.UD sig nD τ) ℕ cfg3 c) (hA : dat.A 2 = V c (Pipeline.arrRef spec3 2))
    (t : Fin cfg3.N) (d) : dat.before 2 t d = (cfg3.win 2).fill (cfg3.grid.coords t) d (iblk3 V c 2 t) :=
  (dat.before_fetched 2 t (fetch3_2 t) d).trans (by unfold Dat.fetched Dat.blockOf iblk3; rw [hA])

def dat3 (c : Dev nD) : Dat τ (Elt Ideal) Unit ℕ (Pipeline.UD sig nD τ) ℕ cfg3 c where
  A w := V c (Pipeline.arrRef spec3 w)
  after w t := match w with
    | ⟨0, _⟩ => iblk3 V c 0 t
    | ⟨1, _⟩ => fblk3_1 V c t
    | ⟨2, _⟩ => fblk3_2 V c t
    | ⟨3, _⟩ => out3_3 (iblk3 V c 0 t) (fblk3_1 V c t) (fblk3_2 V c t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = fblk3_1 V c t := by dsimp only [dat3]
theorem after3_2 (c : Dev nD) (t : Fin cfg3.N) : (dat3 V c).after 2 t = fblk3_2 V c t := by dsimp only [dat3]
theorem after3_3 (c : Dev nD) (t : Fin cfg3.N) :
    (dat3 V c).after 3 t = out3_3 (iblk3 V c 0 t) (fblk3_1 V c t) (fblk3_2 V c t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) :
    (dat3 V c).before 1 t d = (cfg3.win 1).fill (cfg3.grid.coords t) d (iblk3 V c 1 t) :=
  before3_1_of V (dat3 V c) (A_eq3 V c 1) t d
theorem before3_2 (c : Dev nD) (t : Fin cfg3.N) (d) :
    (dat3 V c).before 2 t d = (cfg3.win 2).fill (cfg3.grid.coords t) d (iblk3 V c 2 t) :=
  before3_2_of V (dat3 V c) (A_eq3 V c 2) t d

theorem cut3_1 (c : Dev nD) (t : Fin cfg3.N) : (cfg3.win 1).cut (cfg3.grid.coords t) (fblk3_1 V c t) = iblk3 V c 1 t :=
  (cfg3.win 1).cut_fill _ _ _
theorem cut3_2 (c : Dev nD) (t : Fin cfg3.N) : (cfg3.win 2).cut (cfg3.grid.coords t) (fblk3_2 V c t) = iblk3 V c 2 t :=
  (cfg3.win 2).cut_fill _ _ _

theorem fill_indep {G : Pipeline.Grid} (w : Window sig G) {α : Type} (i : G.Coords) (d d' : w.block.Idx → α) (g : (w.xblock i).Idx → α)
    {J : w.block.Idx} (h : w.moved i J = true) : w.fill i d g J = w.fill i d' g J := by
  unfold Window.fill; rw [dif_pos h, dif_pos h]

theorem cut_out3_3 (t : Fin cfg3.N) (x0 : Vec Ideal S1x2048 .f32)
    (b1 : ((cfg3.win 1).xblock (cfg3.grid.coords t)).Idx → Elt Ideal .f32) (b2 : ((cfg3.win 2).xblock (cfg3.grid.coords t)).Idx → Elt Ideal .f32)
    (d1 d1' : Vec Ideal S1536x2048 .f32) (d2 d2' : Vec Ideal S1x1536 .f32) :
    (cfg3.win 3).cut (cfg3.grid.coords t) (out3_3 x0 ((cfg3.win 1).fill (cfg3.grid.coords t) d1 b1) ((cfg3.win 2).fill (cfg3.grid.coords t) d2 b2))
      = (cfg3.win 3).cut (cfg3.grid.coords t) (out3_3 x0 ((cfg3.win 1).fill (cfg3.grid.coords t) d1' b1) ((cfg3.win 2).fill (cfg3.grid.coords t) d2' b2)) := by
  funext j
  have hq : (j (1 : Fin 2)).val < 1536 := Nat.lt_of_lt_of_le (j (1 : Fin 2)).isLt ((cfg3.win 3).xsize_le (cfg3.grid.coords t) (1 : Fin 2))
  have h0 : (j (0 : Fin 2)).val = 0 := by
    have h : (j (0 : Fin 2)).val < 1 := Nat.lt_of_lt_of_le (j (0 : Fin 2)).isLt ((cfg3.win 3).xsize_le (cfg3.grid.coords t) (0 : Fin 2))
    omega
  have e : (cfg3.win 3).xinj (cfg3.grid.coords t) j = ix2 (0 : Fin 1) (⟨(j (1 : Fin 2)).val, hq⟩ : Fin 1536) := funext fun a => Fin.ext (by
    match a with
    | ⟨0, _⟩ => exact h0
    | ⟨1, _⟩ => rfl)
  show out3_3 _ _ _ ((cfg3.win 3).xinj (cfg3.grid.coords t) j) = out3_3 _ _ _ ((cfg3.win 3).xinj (cfg3.grid.coords t) j)
  rw [e]
  refine out3_3_congr x0 _ _ _ _ _ (fun k => ?_) ?_
  · exact fill_indep (cfg3.win 1) _ d1 d1' b1 (((cfg3.win 1).moved_iff _ _).mpr fun a => by
      match a with
      | ⟨0, _⟩ => exact (j (1 : Fin 2)).isLt
      | ⟨1, _⟩ => exact k.isLt)
  · exact fill_indep (cfg3.win 2) _ d2 d2' b2 (((cfg3.win 2).moved_iff _ _).mpr fun a => by
      match a with
      | ⟨0, _⟩ => exact Nat.zero_lt_one
      | ⟨1, _⟩ => exact (j (1 : Fin 2)).isLt)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ (∃ d, owns (c : Thread nD τ) (st3_1 t) fullShare
        ((cfg3.win 1).fill (cfg3.grid.coords t) d ((cfg3.win 1).cut (cfg3.grid.coords t) ((dat3 V c).after 1 t))))
    ∗ (∃ d, owns (c : Thread nD τ) (st3_2 t) fullShare
        ((cfg3.win 2).fill (cfg3.grid.coords t) d ((cfg3.win 2).cut (cfg3.grid.coords t) ((dat3 V c).after 2 t))))
    ∗ (∃ d, owns (c : Thread nD τ) (st3_3 t) fullShare
        ((cfg3.win 3).fill (cfg3.grid.coords t) d ((cfg3.win 3).cut (cfg3.grid.coords t) ((dat3 V c).after 3 t)))))

theorem sound_body3 (c : Dev nD) (t : Fin cfg3.N) :
    bodyPre3 V c t ⊢ wp frame (wpE (defs₀ (F := Ideal)) Variants.none c none) Set.univ (bodyAt3 (F := Ideal) t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, cut3_1, cut3_2]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) ((cfg3.win 1).fill (cfg3.grid.coords t) d1 (iblk3 V c 1 t))
    ((cfg3.win 2).fill (cfg3.grid.coords t) d2 (iblk3 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2

  iexists (out3_3 (iblk3 V c 0 t) ((cfg3.win 1).fill (cfg3.grid.coords t) d1 (iblk3 V c 1 t)) ((cfg3.win 2).fill (cfg3.grid.coords t) d2 (iblk3 V c 2 t)))
  have hcut : (cfg3.win 3).cut (cfg3.grid.coords t) (out3_3 (iblk3 V c 0 t) ((cfg3.win 1).fill (cfg3.grid.coords t) d1 (iblk3 V c 1 t))
        ((cfg3.win 2).fill (cfg3.grid.coords t) d2 (iblk3 V c 2 t)))
      = (cfg3.win 3).cut (cfg3.grid.coords t) (out3_3 (iblk3 V c 0 t) (fblk3_1 V c t) (fblk3_2 V c t)) :=
    cut_out3_3 t (iblk3 V c 0 t) (iblk3 V c 1 t) (iblk3 V c 2 t) d1 _ d2 _
  rw [(cfg3.win 3).fill_congr_cut (cfg3.grid.coords t) hcut]
  iexact H3

theorem body_obligation3 (c : Dev nD) : BodyObligationLoose (dat3 V c) (defs₀ (F := Ideal)) Variants.none () Set.univ := fun t => by
  rw [bigSep_W3, bigSep_W3]
  exact sound_body3 V c t

end Cert.KernelIdeal.Hand

end
-- ==== Proof.KernelIdeal.R0.lean ====
import proofs.«418227_j23983097381305_3_alg».proof.Proof.Gen.KernelIdeal.Launch
import proofs.«418227_j23983097381305_3_alg».proof.Proof.Gen.KernelIdeal.Skeleton
import proofs.«418227_j23983097381305_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (a : (pcfg0 (F := F)).Adm)

def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

theorem before0_0_of {c : Dev nD} (dat : Dat τ (Elt F) Unit ℕ (Pipeline.UD sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ (cfg0 a) c) (hA : dat.A 2 = V c (Pipeline.arrRef spec0 2))
    (hafter : ∀ t, dat.after 2 t = iblk0 V a c 2 t) (t : Fin (cfg0 a).N) (d) : dat.before 2 t d = iblk0 V a c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ (cfg0 a) c) (hA : dat.A 3 = V c (Pipeline.arrRef spec0 3))
    (hafter : ∀ t, dat.after 3 t = iblk0 V a c 3 t) (t : Fin (cfg0 a).N) (d) : dat.before 3 t d = iblk0 V a c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev tbM0 : Memref sig .tc .smem S1 .i32 := Memref.whole main_arg0
abbrev htbM0 : tbM0.IsWhole := Memref.isWhole_whole _
abbrev hbM0 : Memref sig .tc .hbm S50257x2048 .f32 := Memref.whole main_arg3
abbrev hhbM0 : hbM0.IsWhole := Memref.isWhole_whole _

abbrev MBuf0 (c : Dev nD) {sp : Space} {S : Shape} {e : EltTy} (M : Memref sig .tc sp S e) : Type := Buf (Elt F) (M.view.loc (c : Thread nD τ))
abbrev mPt0 (c : Dev nD) {sp : Space} {S : Shape} {e : EltTy} (M : Memref sig .tc sp S e) (f : MBuf0 (F := F) c M) : sProp 𝕄 :=
  M.view.loc (c : Thread nD τ) ↦{fullShare} f

abbrev tword0 (xt : tbM0.view.ty.Contents (Elt F)) : Elt F .i32 :=
  tbM0.view.readAt (Elt F) (Rect.unit (s := S1) ![0] S1.size inb_S1_S1_0).toLoadRect xt (Shape.Idx.first (numel1_S1.symm ▸ Nat.one_pos))

abbrev osem0 : Fin 1 → SemLoc sig := fun j => (![SemLoc.dma 7] : Fin 1 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0) := by
  rw [Pipeline.ownSems0_eq_of_list c osem0 [0] (by decide) (by decide)]; rfl

def H0 : Finset (Ref sig .tc) := {main_arg3}
theorem H0_sub : H0 ⊆ Pipeline.restRefsP sig pre0 spec0 := by decide

theorem hbmPts0_eq (c : Dev nD) :
    (bigSep H0 (fun b => ((c : Thread nD τ).loc b) ↦{fullShare} V c b) : sProp 𝕄) = iprop(mPt0 c hbM0 (V c main_arg3)) := by
  rw [BI.bigSep_eq_bigSepL_of_eq [main_arg3] (by decide) (by decide)]; rfl

theorem prefHeld0_eq (c : Dev nD) (v : pre0.Contents (Elt F)) :
    (Pipeline.prefHeld (Ix := Unit) (Name := ℕ) (U := Pipeline.UD sig nD τ) (Lvl := ℕ) pre0 c (fun _ => fullShare) v : sProp 𝕄)
      = iprop(mPt0 c tbM0 (v 0)) := by
  unfold Pipeline.prefHeld
  rw [show (Finset.univ : Finset (Fin 1)) = {(0 : Fin 1)} from by decide, bigSep_singleton]
  rfl

def Φ0 (c : Dev nD) : sProp 𝕄 :=
  iprop(Pipeline.ΦD osem0 spec0 H0 V c ∗ Pipeline.prefHeld pre0 c (fun _ => fullShare) a.1)

theorem Phi0_eq (c : Dev nD) :
    (Φ0 V a c : sProp 𝕄)
      = iprop(iprop(Pipeline.scopedRest (Ix := Unit) (Name := ℕ) (U := Pipeline.UD sig nD τ) (Lvl := ℕ) (Val := Elt F) spec0 c ∗ (∃ r, prngReg c r)
          ∗ iprop(semVal ((c : Thread nD τ), SemLoc.dma 7) 0) ∗ iprop(mPt0 c hbM0 (V c main_arg3))) ∗ iprop(mPt0 c tbM0 (a.1 0))) := by
  unfold Φ0
  rw [Pipeline.ΦD_eq, ownSems00_eq, hbmPts0_eq, prefHeld0_eq]

abbrev r0_h : Rect S1x2048 := Rect.unit (s := S1x2048) ![0, 0] S1x2048.size inb_S1x2048_S1x2048_0_0
abbrev r0_w : Rect S64x4096 := Rect.unit (s := S64x4096) ![0, 0] S64x4096.size inb_S64x4096_S64x4096_0_0
abbrev r0_b : Rect S1x64 := Rect.unit (s := S1x64) ![0, 0] S1x64.size inb_S1x64_S1x64_0_0
abbrev r0_e : Rect S64x2048 := Rect.unit (s := S64x2048) ![0, 0] S64x2048.size inb_S64x2048_S64x2048_0_0

def emb_row0 (fh : hbM0.view.ty.Contents (Elt F)) (w : Elt F .i32) (hw : k0_chk1 w) : Vec F S1x2048 .f32 :=
  View.ld (hbM0.view.read (Elt F) fh) (Rect.unit (s := S50257x2048) (k0_off1 w) S1x2048.size (k0_off1_inb w hw))

def att0 (x4 : Vec F S1x2048 .f32) (x0 : Vec F S1x2048 .f32) (x1 : Vec F S64x4096 .f32) (x2 : Vec F S1x64 .f32) : Vec F S1x64 .f32 :=
  k0_pay2 (View.ld x4 r0_h) (View.ld x0 r0_h) (View.ld x1 r0_w) (View.ld x2 r0_b)

def out0_5 (x4 : Vec F S1x2048 .f32) (x0 : Vec F S1x2048 .f32) (x1 : Vec F S64x4096 .f32) (x2 : Vec F S1x64 .f32) : Vec F S1x64 .f32 :=
  View.canon [⟨r0_b, att0 x4 x0 x1 x2⟩]

def out0_6 (x4 : Vec F S1x2048 .f32) (x0 : Vec F S1x2048 .f32) (x1 : Vec F S64x4096 .f32) (x2 : Vec F S1x64 .f32) (x3 : Vec F S64x2048 .f32) : Vec F S1x2048 .f32 :=
  View.canon [⟨r0_h, k0_pay1 (att0 x4 x0 x1 x2) (View.ld x3 r0_e)⟩]

theorem read_write_squeezed {sig' : RefSig} {κ : Kind} {sp : Space} {s s' : Shape} {e : EltTy} {Val : EltTy → Type}
    (M : Memref sig' κ sp s e) {off : Fin s.rank → Nat} (hoff : off = fun _ => 0) (inb : ∀ a, off a + s.size a ≤ s.size a)
    (hr : ∀ a, (Rect.unit off s.size inb).stride a = 1) (hq : (Rect.unit off s.size inb).shape.Squeezes s')
    (f : M.view.ty.Contents Val) (p : s'.Idx → Val e) (y : s.Idx) :
    M.view.read Val (View.write Val ((M.slice (Rect.unit off s.size inb) hr).squeeze s' hq).view f p Finset.univ) y
      = p ((Shape.reshapeEquiv hq.numel_eq).symm y) := by
  subst hoff
  have e1 : M.view.emb y = ((M.slice (Rect.unit (fun _ => 0) s.size inb) hr).squeeze s' hq).view.emb ((Shape.reshapeEquiv hq.numel_eq).symm y) := by
    show M.view.emb y = M.view.emb ((Rect.whole s).emb (Shape.reshapeEquiv hq.numel_eq ((Shape.reshapeEquiv hq.numel_eq).symm y)))
    rw [Equiv.apply_symm_apply, Rect.emb_whole_apply]
  rw [View.read_apply, e1, View.write_emb_of_mem _ _ (Finset.mem_univ _), cast_cast, cast_eq]

theorem hoff2 : (![0, 0] : Fin S1x2048.rank → Nat) = fun _ => 0 := by
  funext a; fin_cases a <;> rfl

theorem emb_read0 (M : Memref sig .tc .vmem S1x2048 .f32) (hr : ∀ a, r0_h.stride a = 1) (f4 : M.view.ty.Contents (Elt F))
    (fh : hbM0.view.ty.Contents (Elt F)) (w : Elt F .i32) (hw : k0_chk1 w)
    (hr' : ∀ a, (Rect.unit (s := S50257x2048) (k0_off1 w) S1x2048.size (k0_off1_inb w hw)).stride a = 1) :
    M.view.read (Elt F) (View.write (Elt F) ((M.slice r0_h hr).squeeze S2048 squeezes_S1x2048_S2048).view f4
        (ReadAs.same.apply (View.read (Elt F)
          ((hbM0.slice (Rect.unit (s := S50257x2048) (k0_off1 w) S1x2048.size (k0_off1_inb w hw)) hr').squeeze S2048 squeezes_S1x2048_S2048).view fh))
        Finset.univ)
      = emb_row0 fh w hw := by
  funext y
  refine (read_write_squeezed M (off := ![0, 0]) hoff2 inb_S1x2048_S1x2048_0_0 hr squeezes_S1x2048_S2048 f4 _ y).trans ?_
  show hbM0.view.read (Elt F) fh ((Rect.unit (s := S50257x2048) (k0_off1 w) S1x2048.size (k0_off1_inb w hw)).emb
      (Shape.reshapeEquiv squeezes_S1x2048_S2048.numel_eq ((Shape.reshapeEquiv squeezes_S1x2048_S2048.numel_eq).symm y))) = _
  rw [Equiv.apply_symm_apply]; rfl

theorem cover0_5 (p0 : Vec F S1x64 .f32) (y : S1x64.Idx) :
    ∃ pc ∈ ([⟨r0_b, p0⟩] : List (View.Piece (Elt F) S1x64 .f32)), y ∈ pc.1.set :=
  View.cover_of_tiled [⟨r0_b, p0⟩] S1x64.size (by rfl) y
theorem cover0_6 (p0 : Vec F S1x2048 .f32) (y : S1x2048.Idx) :
    ∃ pc ∈ ([⟨r0_h, p0⟩] : List (View.Piece (Elt F) S1x2048 .f32)), y ∈ pc.1.set :=
  View.cover_of_tiled [⟨r0_h, p0⟩] S1x2048.size (by rfl) y

set_option maxHeartbeats 4000000 in

theorem sound_kernel0 (c : Dev nD) (i : grid0.Coords)
    (arg2 : Memref sig .tc .vmem S1x2048 .f32) (harg2 : arg2.IsWhole)
    (arg4 : Memref sig .tc .vmem S64x4096 .f32) (harg4 : arg4.IsWhole) (arg5 : Memref sig .tc .vmem S1x64 .f32) (harg5 : arg5.IsWhole)
    (arg6 : Memref sig .tc .vmem S64x2048 .f32) (harg6 : arg6.IsWhole) (arg7 : Memref sig .tc .vmem S1x2048 .f32) (harg7 : arg7.IsWhole)
    (arg8 : Memref sig .tc .vmem S1x64 .f32) (harg8 : arg8.IsWhole) (arg9 : Memref sig .tc .vmem S1x2048 .f32) (harg9 : arg9.IsWhole)
    (x0 : Vec F S1x2048 .f32) (x1 : Vec F S64x4096 .f32) (x2 : Vec F S1x64 .f32) (x3 : Vec F S64x2048 .f32)
    (fh : MBuf0 (F := F) c hbM0) (xt : MBuf0 (F := F) c tbM0) (hw : k0_chk1 (tword0 xt)) (W : Waits sig Unit) (K : PUnit → sProp 𝕄) :
    iprop(owns (c : Thread nD τ) arg2 fullShare x0 ∗ owns (c : Thread nD τ) arg4 fullShare x1 ∗ owns (c : Thread nD τ) arg5 fullShare x2
        ∗ owns (c : Thread nD τ) arg6 fullShare x3
        ∗ (∃ d, owns (c : Thread nD τ) arg7 fullShare d) ∗ (∃ d, owns (c : Thread nD τ) arg8 fullShare d) ∗ (∃ d, owns (c : Thread nD τ) arg9 fullShare d)
        ∗ semVal ((c : Thread nD τ), SemLoc.dma 7) 0 ∗ mPt0 c hbM0 fh ∗ mPt0 c tbM0 xt ∗ owes (c : Thread nD τ) 0 W
        ∗ (iprop(owns (c : Thread nD τ) arg2 fullShare x0 ∗ owns (c : Thread nD τ) arg4 fullShare x1 ∗ owns (c : Thread nD τ) arg5 fullShare x2
            ∗ owns (c : Thread nD τ) arg6 fullShare x3
            ∗ owns (c : Thread nD τ) arg7 fullShare (emb_row0 fh (tword0 xt) hw)
            ∗ owns (c : Thread nD τ) arg8 fullShare (out0_5 (emb_row0 fh (tword0 xt) hw) x0 x1 x2)
            ∗ owns (c : Thread nD τ) arg9 fullShare (out0_6 (emb_row0 fh (tword0 xt) hw) x0 x1 x2 x3)
            ∗ semVal ((c : Thread nD τ), SemLoc.dma 7) 0 ∗ mPt0 c hbM0 fh ∗ mPt0 c tbM0 xt ∗ (∃ W', owes (c : Thread nD τ) 0 W')) -∗ K ⟨⟩))
      ⊢ wp frame (wpE (defs₀ (F := F)) Variants.none c none) Set.univ
          (cc0__frontend_kernel i tbM0 htbM0 arg2 harg2 hbM0 hhbM0 arg4 harg4 arg5 harg5 arg6 harg6 arg7 harg7 arg8 harg8 arg9 harg9 cc0_scratch0) K := by
  simp only [cc0__frontend_kernel_eq_skeleton]; unfold cc0__frontend_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hq, Hh, Ht, HW, Hk⟩
  subst hf0; subst hf1; subst hf2; subst hf3
  sl_exec (disch := first | sl_exact hw)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact emb_read0 arg7 _ f4 fh _ hw _
  isplitl [H5]
  · iexists _; isplitr
    swap; · iexact H5
    ipureintro
    refine (View.read_writes_eq_canon _ _ _ (cover0_5 _)).trans ?_
    unfold out0_5 att0
    rw [← emb_read0 arg7 _ f4 fh _ hw _]
    rfl
  isplitl [H6]
  · iexists _; isplitr
    swap; · iexact H6
    ipureintro
    refine (View.read_writes_eq_canon _ _ _ (cover0_6 _)).trans ?_
    unfold out0_6 att0
    rw [← emb_read0 arg7 _ f4 fh _ hw _]
    rfl
  isplitl [Hq]; · iexact Hq
  isplitl [Hh]; · iexact Hh
  isplitl [Ht]; · iexact Ht
  iexists _; iexact HW

variable (hw : k0_chk1 (tword0 (F := F) (a.1 0)))

abbrev erow0 (c : Dev nD) : Vec F S1x2048 .f32 := emb_row0 (V c main_arg3) (tword0 (a.1 0)) hw

def dat0 (c : Dev nD) : Dat τ (Elt F) Unit ℕ (Pipeline.UD sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => erow0 V a hw c
    | ⟨5, _⟩ => out0_5 (erow0 V a hw c) (iblk0 V a c 0 t) (iblk0 V a c 1 t) (iblk0 V a c 2 t)
    | ⟨6, _⟩ => out0_6 (erow0 V a hw c) (iblk0 V a c 0 t) (iblk0 V a c 1 t) (iblk0 V a c 2 t) (iblk0 V a c 3 t)
  Φ _ := Φ0 V a c
  q _ := fullShare
  owed _ := 0

theorem A_eq0 (c : Dev nD) (w : Fin (cfg0 a).W) : (dat0 V a hw c).A w = V c (Pipeline.arrRef spec0 w) := by
  dsimp only [dat0]

theorem after0_0 (c : Dev nD) (t : Fin (cfg0 a).N) : (dat0 V a hw c).after 0 t = iblk0 V a c 0 t := by dsimp only [dat0]; try rfl
theorem after0_1 (c : Dev nD) (t : Fin (cfg0 a).N) : (dat0 V a hw c).after 1 t = iblk0 V a c 1 t := by dsimp only [dat0]; try rfl
theorem after0_2 (c : Dev nD) (t : Fin (cfg0 a).N) : (dat0 V a hw c).after 2 t = iblk0 V a c 2 t := by dsimp only [dat0]; try rfl
theorem after0_3 (c : Dev nD) (t : Fin (cfg0 a).N) : (dat0 V a hw c).after 3 t = iblk0 V a c 3 t := by dsimp only [dat0]; try rfl
theorem after0_4 (c : Dev nD) (t : Fin (cfg0 a).N) : (dat0 V a hw c).after 4 t = erow0 V a hw c := by dsimp only [dat0]; try rfl
theorem after0_5 (c : Dev nD) (t : Fin (cfg0 a).N) :
    (dat0 V a hw c).after 5 t = out0_5 (erow0 V a hw c) (iblk0 V a c 0 t) (iblk0 V a c 1 t) (iblk0 V a c 2 t) := by dsimp only [dat0]; try rfl
theorem after0_6 (c : Dev nD) (t : Fin (cfg0 a).N) :
    (dat0 V a hw c).after 6 t = out0_6 (erow0 V a hw c) (iblk0 V a c 0 t) (iblk0 V a c 1 t) (iblk0 V a c 2 t) (iblk0 V a c 3 t) := by dsimp only [dat0]; try rfl

theorem before0_0 (c : Dev nD) (t : Fin (cfg0 a).N) (d) : (dat0 V a hw c).before 0 t d = iblk0 V a c 0 t :=
  before0_0_of V a (dat0 V a hw c) (A_eq0 V a hw c 0) (after0_0 V a hw c) t d
theorem before0_1 (c : Dev nD) (t : Fin (cfg0 a).N) (d) : (dat0 V a hw c).before 1 t d = iblk0 V a c 1 t :=
  before0_1_of V a (dat0 V a hw c) (A_eq0 V a hw c 1) (after0_1 V a hw c) t d
theorem before0_2 (c : Dev nD) (t : Fin (cfg0 a).N) (d) : (dat0 V a hw c).before 2 t d = iblk0 V a c 2 t :=
  before0_2_of V a (dat0 V a hw c) (A_eq0 V a hw c 2) (after0_2 V a hw c) t d
theorem before0_3 (c : Dev nD) (t : Fin (cfg0 a).N) (d) : (dat0 V a hw c).before 3 t d = iblk0 V a c 3 t :=
  before0_3_of V a (dat0 V a hw c) (A_eq0 V a hw c 3) (after0_3 V a hw c) t d

abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)
abbrev st0_3 (t : Fin (cfg0 a).N) := ((cfg0 a).win 3).stage ((cfg0 a).slots t 3)
abbrev st0_4 (t : Fin (cfg0 a).N) := ((cfg0 a).win 4).stage ((cfg0 a).slots t 4)
abbrev st0_5 (t : Fin (cfg0 a).N) := ((cfg0 a).win 5).stage ((cfg0 a).slots t 5)
abbrev st0_6 (t : Fin (cfg0 a).N) := ((cfg0 a).win 6).stage ((cfg0 a).slots t 6)

abbrev bodyAt0 (t : Fin (cfg0 a).N) : Prog (TpuEff nD τ sig (Elt F) Λ₀ .tc) PUnit :=
  cc0__frontend_kernel (grid0.coords t) (Memref.whole main_arg0) (Memref.isWhole_whole _) (spec0_0.stage ((cfg0 a).slots t 0)) (hstage0_0 (((cfg0 a).slots t 0).cast nbuf0_0)) (Memref.whole main_arg3) (Memref.isWhole_whole _) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) cc0_scratch0

def bodyPre0 (c : Dev nD) (t : Fin (cfg0 a).N) : sProp 𝕄 :=
  iprop((dat0 V a hw c).Φ t.castSucc ∗ (dat0 V a hw c).owesAt () t.castSucc
    ∗ (∃ d, owns (c : Thread nD τ) (st0_0 a t) fullShare ((dat0 V a hw c).before 0 t d))
    ∗ (∃ d, owns (c : Thread nD τ) (st0_1 a t) fullShare ((dat0 V a hw c).before 1 t d))
    ∗ (∃ d, owns (c : Thread nD τ) (st0_2 a t) fullShare ((dat0 V a hw c).before 2 t d))
    ∗ (∃ d, owns (c : Thread nD τ) (st0_3 a t) fullShare ((dat0 V a hw c).before 3 t d))
    ∗ (∃ d, owns (c : Thread nD τ) (st0_4 a t) fullShare ((dat0 V a hw c).before 4 t d))
    ∗ (∃ d, owns (c : Thread nD τ) (st0_5 a t) fullShare ((dat0 V a hw c).before 5 t d))
    ∗ (∃ d, owns (c : Thread nD τ) (st0_6 a t) fullShare ((dat0 V a hw c).before 6 t d)))

def bodyPost0 (c : Dev nD) (t : Fin (cfg0 a).N) : sProp 𝕄 :=
  iprop((dat0 V a hw c).Φ t.succ ∗ (dat0 V a hw c).owesAt () t.succ
    ∗ owns (c : Thread nD τ) (st0_0 a t) fullShare ((dat0 V a hw c).after 0 t)
    ∗ owns (c : Thread nD τ) (st0_1 a t) fullShare ((dat0 V a hw c).after 1 t)
    ∗ owns (c : Thread nD τ) (st0_2 a t) fullShare ((dat0 V a hw c).after 2 t)
    ∗ owns (c : Thread nD τ) (st0_3 a t) fullShare ((dat0 V a hw c).after 3 t)
    ∗ owns (c : Thread nD τ) (st0_4 a t) fullShare ((dat0 V a hw c).after 4 t)
    ∗ owns (c : Thread nD τ) (st0_5 a t) fullShare ((dat0 V a hw c).after 5 t)
    ∗ owns (c : Thread nD τ) (st0_6 a t) fullShare ((dat0 V a hw c).after 6 t))

theorem sound_body0 (c : Dev nD) (t : Fin (cfg0 a).N) :
    bodyPre0 V a hw c t ⊢ wp frame (wpE (defs₀ (F := F)) Variants.none c none) Set.univ (bodyAt0 a t) (fun _ => bodyPost0 V a hw c t) := by
  unfold bodyPre0 bodyPost0 bodyAt0
  simp only [before0_0, before0_1, before0_2, before0_3]
  rw [show (dat0 V a hw c).Φ t.succ = (dat0 V a hw c).Φ t.castSucc from rfl,
    after0_0, after0_1, after0_2, after0_3, after0_4, after0_5, after0_6]
  rw [show (dat0 V a hw c).Φ t.castSucc = Φ0 V a c from rfl, Phi0_eq]
  unfold Dat.owesAt Pipeline.owesWithin
  rw [show (dat0 V a hw c).owed t.castSucc = 0 from rfl, show (dat0 V a hw c).owed t.succ = 0 from rfl]
  iintro ⟨⟨⟨HR, Hg, Hq, Hh⟩, Ht⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (sound_kernel0 c (grid0.coords t) _ _ _ _ _ _ _ _ _ _ _ _ _ _ (iblk0 V a c 0 t) (iblk0 V a c 1 t) (iblk0 V a c 2 t) (iblk0 V a c 3 t)
    (V c main_arg3) (a.1 0) hw W _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [Hq]; · iexact Hq
  isplitl [Hh]; · iexact Hh
  isplitl [Ht]; · iexact Ht
  isplitl [HW]; · iexact HW
  iintro ⟨H0, H1, H2, H3, H4, H5, H6, Hq, Hh, Ht, ⟨%W', HW'⟩⟩
  isplitl [HR Hg Hq Hh Ht]
  · isplitl [HR Hg Hq Hh]
    · isplitl [HR]; · iexact HR
      isplitl [Hg]; · iexact Hg
      isplitl [Hq]; · iexact Hq
      iexact Hh
    iexact Ht
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V a hw c) (defs₀ (F := F)) Variants.none () Set.univ := fun t => by
  rw [bigSep_W0, bigSep_W0]
  exact sound_body0 V a hw c t

theorem tword0_eq (xt : tbM0.view.ty.Contents (Elt F)) (j : S1.Idx) : tword0 xt = tbM0.view.read (Elt F) xt j := by
  show tbM0.view.read (Elt F) xt _ = tbM0.view.read (Elt F) xt j
  congr 1
  funext d; apply Fin.ext
  have hs : S1.size d = 1 := by match d with | ⟨0, _⟩ => rfl
  have h1 := (j d).isLt
  have h2 := ((Rect.unit (s := S1) ![0] S1.size inb_S1_S1_0).toLoadRect.idx (Shape.Idx.first (numel1_S1.symm ▸ Nat.one_pos)) d).isLt
  omega

theorem emb_row0_apply (fh : hbM0.view.ty.Contents (Elt F)) (w : Elt F .i32) (hw : k0_chk1 w) (y : S1x2048.Idx) (k : S50257x2048.Idx)
    (h0 : (k 0).val = w.toNat) (h1 : (k 1).val = (y 1).val) :
    emb_row0 fh w hw y = hbM0.view.read (Elt F) fh k := by
  unfold emb_row0
  show hbM0.view.read (Elt F) fh ((Rect.unit (s := S50257x2048) (k0_off1 w) S1x2048.size (k0_off1_inb w hw)).emb y) = _
  congr 1
  have hy0 : (y 0).val = 0 := by
    have := (y 0).isLt
    have hs : S1x2048.size 0 = 1 := rfl
    omega
  refine Shape.idx_ext₂ ?_ ?_
  · rw [Rect.emb_apply, h0]; show w.toNat + 1 * (y 0).val = _; omega
  · rw [Rect.emb_apply, h1]; show 0 + 1 * (y 1).val = _; omega

theorem hoffb : (![0, 0] : Fin S1x64.rank → Nat) = fun _ => 0 := by
  funext a; fin_cases a <;> rfl
theorem hoffw : (![0, 0] : Fin S64x4096.rank → Nat) = fun _ => 0 := by
  funext a; fin_cases a <;> rfl
theorem hoffe : (![0, 0] : Fin S64x2048.rank → Nat) = fun _ => 0 := by
  funext a; fin_cases a <;> rfl

theorem att0_eq (x4 : Vec F S1x2048 .f32) (x0 : Vec F S1x2048 .f32) (x1 : Vec F S64x4096 .f32) (x2 : Vec F S1x64 .f32) :
    att0 x4 x0 x1 x2 = k0_pay2 x4 x0 x1 x2 := by
  unfold att0
  rw [View.ld_unit_zero hoff2 inb_S1x2048_S1x2048_0_0 x4, View.ld_unit_zero hoff2 inb_S1x2048_S1x2048_0_0 x0,
    View.ld_unit_zero hoffw inb_S64x4096_S64x4096_0_0 x1, View.ld_unit_zero hoffb inb_S1x64_S1x64_0_0 x2]
theorem out0_5_eq (x4 : Vec F S1x2048 .f32) (x0 : Vec F S1x2048 .f32) (x1 : Vec F S64x4096 .f32) (x2 : Vec F S1x64 .f32) :
    out0_5 x4 x0 x1 x2 = k0_pay2 x4 x0 x1 x2 := by
  unfold out0_5
  rw [View.canon_unit_zero hoffb inb_S1x64_S1x64_0_0, att0_eq]
theorem out0_6_eq (x4 : Vec F S1x2048 .f32) (x0 : Vec F S1x2048 .f32) (x1 : Vec F S64x4096 .f32) (x2 : Vec F S1x64 .f32) (x3 : Vec F S64x2048 .f32) :
    out0_6 x4 x0 x1 x2 x3 = k0_pay1 (out0_5 x4 x0 x1 x2) x3 := by
  unfold out0_6
  rw [View.canon_unit_zero hoff2 inb_S1x2048_S1x2048_0_0, out0_5_eq, att0_eq, View.ld_unit_zero hoffe inb_S64x2048_S64x2048_0_0 x3]

theorem after0_5_eq (c : Dev nD) (t : Fin (cfg0 a).N) :
    (dat0 V a hw c).after 5 t = k0_pay2 ((dat0 V a hw c).after 4 t) (iblk0 V a c 0 t) (iblk0 V a c 1 t) (iblk0 V a c 2 t) := by
  rw [after0_5, after0_4]; exact out0_5_eq _ _ _ _
theorem after0_6_eq (c : Dev nD) (t : Fin (cfg0 a).N) :
    (dat0 V a hw c).after 6 t = k0_pay1 ((dat0 V a hw c).after 5 t) (iblk0 V a c 3 t) := by
  rw [after0_6, after0_5]; exact out0_6_eq _ _ _ _ _

end Cert.KernelIdeal.Hand

end
-- ==== Proof.KernelIdeal.RunI.lean ====
import proofs.«418227_j23983097381305_3_alg».proof.Proof.KernelIdeal.R1
import proofs.«418227_j23983097381305_3_alg».proof.Proof.KernelIdeal.R2
import proofs.«418227_j23983097381305_3_alg».proof.Proof.KernelIdeal.R3
import proofs.«418227_j23983097381305_3_alg».proof.Proof.KernelIdeal.R0
import proofs.«418227_j23983097381305_3_alg».proof.Proof.Gen.KernelIdeal.Regions
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

open Idealize.ShloMosaic.ValueIdx (ix1 ix2 ix3)

variable (m : (ℓ : Loc nD τ sig) → Buf (Elt Ideal) ℓ)

def tbl : pre0.Contents (Elt Ideal) := fun k => m (((0 : Dev nD) : Thread nD τ).loc (pre0.ref k))

abbrev adm : (p : Fin 4) → (pcfgs (F := Ideal) p).Adm := fun
  | ⟨0, _⟩ => ⟨tbl m, trivial⟩
  | ⟨1, _⟩ => cfg1.toPCfg_adm
  | ⟨2, _⟩ => cfg2.toPCfg_adm
  | ⟨3, _⟩ => cfg3.toPCfg_adm

variable (hw : k0_chk1 (tword0 (F := Ideal) (tbl m 0)))

abbrev W0 : Dev nD → Valuation τ sig (Elt Ideal) := fun c b => m ((c : Dev nD), b)
abbrev W1 : Dev nD → Valuation τ sig (Elt Ideal) := fun c => StableHlo.after hostOps0 (W0 m c)
abbrev V1 : (c : Dev nD) → (b : Ref sig .tc) → Buf (Elt Ideal) ((c : Thread nD τ).loc b) := fun c b => W1 m c b

abbrev W1' (hw : k0_chk1 (tword0 (F := Ideal) (tbl m 0))) : Dev nD → Valuation τ sig (Elt Ideal) := W1 m

def W2 (c : Dev nD) : Valuation τ sig (Elt Ideal) :=
  Pipeline.withArrays spec0 c (W1' m hw c) fun w => (dat0 (V1 m) (adm m 0) hw c).arrAt w (cfg0 (adm m 0)).N
theorem W2_arr (c : Dev nD) (w : Fin (cfg0 (adm m 0)).W) :
    W2 m hw c (Proc.devRef .tc (Pipeline.arrRef spec0 w)) = (dat0 (V1 m) (adm m 0) hw c).arrAt w (cfg0 (adm m 0)).N := by
  unfold W2; exact Pipeline.withArrays_arr spec0 (launch0 (F := Ideal)).win.arr_inj c _ _ w
theorem W2_of_ne (c : Dev nD) (b : Ref sig .tc) (hb : ∀ w, Pipeline.arrRef spec0 w ≠ b) :
    W2 m hw c (Proc.devRef .tc b) = W1' m hw c (Proc.devRef .tc b) := by
  unfold W2; exact Pipeline.withArrays_of_ne spec0 c _ _ b hb

abbrev V2 : (c : Dev nD) → (b : Ref sig .tc) → Buf (Elt Ideal) ((c : Thread nD τ).loc b) := fun c b => W2 m hw c b
abbrev W3 : Dev nD → Valuation τ sig (Elt Ideal) := fun c => StableHlo.after hostOps1 (W2 m hw c)
abbrev V3 : (c : Dev nD) → (b : Ref sig .tc) → Buf (Elt Ideal) ((c : Thread nD τ).loc b) := fun c b => W3 m hw c b

def W4 (c : Dev nD) : Valuation τ sig (Elt Ideal) :=
  Pipeline.withArrays spec1 c (W3 m hw c) fun w => (dat1 (V3 m hw) c).arrAt w cfg1.N
theorem W4_arr (c : Dev nD) (w : Fin cfg1.W) :
    W4 m hw c (Proc.devRef .tc (Pipeline.arrRef spec1 w)) = (dat1 (V3 m hw) c).arrAt w cfg1.N := by
  unfold W4; exact Pipeline.withArrays_arr spec1 (launch1 (F := Ideal)).win.arr_inj c _ _ w
theorem W4_of_ne (c : Dev nD) (b : Ref sig .tc) (hb : ∀ w, Pipeline.arrRef spec1 w ≠ b) :
    W4 m hw c (Proc.devRef .tc b) = W3 m hw c (Proc.devRef .tc b) := by
  unfold W4; exact Pipeline.withArrays_of_ne spec1 c _ _ b hb

abbrev V4 : (c : Dev nD) → (b : Ref sig .tc) → Buf (Elt Ideal) ((c : Thread nD τ).loc b) := fun c b => W4 m hw c b
abbrev W5 : Dev nD → Valuation τ sig (Elt Ideal) := fun c => StableHlo.after hostOps2 (W4 m hw c)
abbrev W6 : Dev nD → Valuation τ sig (Elt Ideal) := fun c => StableHlo.after hostOps2_1 (W5 m hw c)
abbrev V6 : (c : Dev nD) → (b : Ref sig .tc) → Buf (Elt Ideal) ((c : Thread nD τ).loc b) := fun c b => W6 m hw c b

def W7 (c : Dev nD) : Valuation τ sig (Elt Ideal) :=
  Pipeline.withArrays spec2 c (W6 m hw c) fun w => (dat2 (V6 m hw) c).arrAt w cfg2.N
theorem W7_arr (c : Dev nD) (w : Fin cfg2.W) :
    W7 m hw c (Proc.devRef .tc (Pipeline.arrRef spec2 w)) = (dat2 (V6 m hw) c).arrAt w cfg2.N := by
  unfold W7; exact Pipeline.withArrays_arr spec2 (launch2 (F := Ideal)).win.arr_inj c _ _ w
theorem W7_of_ne (c : Dev nD) (b : Ref sig .tc) (hb : ∀ w, Pipeline.arrRef spec2 w ≠ b) :
    W7 m hw c (Proc.devRef .tc b) = W6 m hw c (Proc.devRef .tc b) := by
  unfold W7; exact Pipeline.withArrays_of_ne spec2 c _ _ b hb

abbrev V7 : (c : Dev nD) → (b : Ref sig .tc) → Buf (Elt Ideal) ((c : Thread nD τ).loc b) := fun c b => W7 m hw c b
abbrev W8 : Dev nD → Valuation τ sig (Elt Ideal) := fun c => StableHlo.after hostOps3 (W7 m hw c)
abbrev V8 : (c : Dev nD) → (b : Ref sig .tc) → Buf (Elt Ideal) ((c : Thread nD τ).loc b) := fun c b => W8 m hw c b

def W9 (c : Dev nD) : Valuation τ sig (Elt Ideal) :=
  Pipeline.withArrays spec3 c (W8 m hw c) fun w => (dat3 (V8 m hw) c).arrAt w cfg3.N
theorem W9_arr (c : Dev nD) (w : Fin cfg3.W) :
    W9 m hw c (Proc.devRef .tc (Pipeline.arrRef spec3 w)) = (dat3 (V8 m hw) c).arrAt w cfg3.N := by
  unfold W9; exact Pipeline.withArrays_arr spec3 (launch3 (F := Ideal)).win.arr_inj c _ _ w
theorem W9_of_ne (c : Dev nD) (b : Ref sig .tc) (hb : ∀ w, Pipeline.arrRef spec3 w ≠ b) :
    W9 m hw c (Proc.devRef .tc b) = W8 m hw c (Proc.devRef .tc b) := by
  unfold W9; exact Pipeline.withArrays_of_ne spec3 c _ _ b hb

abbrev V9 : (c : Dev nD) → (b : Ref sig .tc) → Buf (Elt Ideal) ((c : Thread nD τ).loc b) := fun c b => W9 m hw c b
abbrev W10 : Dev nD → Valuation τ sig (Elt Ideal) := fun c => StableHlo.after hostOps4 (W9 m hw c)
abbrev W11 : Dev nD → Valuation τ sig (Elt Ideal) := fun c => StableHlo.after hostOps4_1 (W10 m hw c)

def pdats : (p : Fin 4) → (c : Dev nD) → Dat τ (Elt Ideal) Unit ℕ (Pipeline.UD sig nD τ) ℕ (Pipeline.pin (pcfgs (F := Ideal)) (adm m) p) c
  | ⟨0, _⟩ => fun c => dat0 (V1 m) (adm m 0) hw c
  | ⟨1, _⟩ => fun c => dat1 (V3 m hw) c
  | ⟨2, _⟩ => fun c => dat2 (V6 m hw) c
  | ⟨3, _⟩ => fun c => dat3 (V8 m hw) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF1 (c : Dev nD) (w : Fin cfg1.W) : (dat1 (V3 m hw) c).arrAt w cfg1.N = V4 m hw c (Pipeline.arrRef spec1 w) := (W4_arr m hw c w).symm
theorem hrest1 (c : Dev nD) : ∀ b, b ∉ Finset.univ.image (Pipeline.arrRef spec1) → V4 m hw c b = V3 m hw c b :=
  fun b hb => W4_of_ne m hw c b fun w e => hb (Finset.mem_image.mpr ⟨w, Finset.mem_univ _, e⟩)
theorem hF2 (c : Dev nD) (w : Fin cfg2.W) : (dat2 (V6 m hw) c).arrAt w cfg2.N = V7 m hw c (Pipeline.arrRef spec2 w) := (W7_arr m hw c w).symm
theorem hrest2 (c : Dev nD) : ∀ b, b ∉ Finset.univ.image (Pipeline.arrRef spec2) → V7 m hw c b = V6 m hw c b :=
  fun b hb => W7_of_ne m hw c b fun w e => hb (Finset.mem_image.mpr ⟨w, Finset.mem_univ _, e⟩)
theorem hF3 (c : Dev nD) (w : Fin cfg3.W) : (dat3 (V8 m hw) c).arrAt w cfg3.N = V9 m hw c (Pipeline.arrRef spec3 w) := (W9_arr m hw c w).symm
theorem hrest3 (c : Dev nD) : ∀ b, b ∉ Finset.univ.image (Pipeline.arrRef spec3) → V9 m hw c b = V8 m hw c b :=
  fun b hb => W9_of_ne m hw c b fun w e => hb (Finset.mem_image.mpr ⟨w, Finset.mem_univ _, e⟩)

set_option backward.isDefEq.respectTransparency.types false in

def reg1 : Pipeline.RegionSeg (pcfgs (F := Ideal)) (adm m) (pdats m hw) () defs₀ 𝒱₀ L lv 1 where
  win := (launch1 (F := Ideal)).win.to₀
  block_pos := (launch1 (F := Ideal)).block_pos
  stage_whole := (launch1 (F := Ideal)).stage_whole
  K := PEmpty
  osem k := k.elim
  ho := Pipeline.OwnSemFacts.none _
  hbody c := (body_obligation1 (V3 m hw) c).loose
  hwaits := Pipeline.hwaits_of_owed_zero _ _ _ _ L lv 1 fun _ _ => rfl
  pre c := iprop(StableHlo.held (c : Thread nD τ) (Pipeline.ucRefs τ sig) (W3 m hw c) ∗ R c)
  post c := iprop(StableHlo.held (c : Thread nD τ) (Pipeline.ucRefs τ sig) (W4 m hw c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m hw c)
  hentry c := by
    rw [Pipeline.ownSems0_none]
    have hsplit := Pipeline.arrays_of_unscopedBufs (p := 1) (pcfgs (F := Ideal)) (adm m) (pdats m hw) (launch1 (F := Ideal)).win (launch1 (F := Ideal)).arr_whole c
      ((pdats m hw 1 c).share_full fun _ => rfl) (V3 m hw c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hw 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m hw 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) (adm m) (Ix := Unit) (Name := ℕ) (U := Pipeline.UD sig nD τ) (Lvl := ℕ)
      (launch1 (F := Ideal)).win (launch1 (F := Ideal)).arr_whole c (pdats m hw) ((pdats m hw 1 c).share_full fun _ => rfl)
      (V3 m hw c) (V4 m hw c) ((pdats m hw 1 c).arrAt · cfg1.N) (hF1 m hw c) (hrest1 m hw c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem dev_eq (c : Dev nD) : c = 0 := Subsingleton.elim _ _

theorem tbl_entry (c : Dev nD) : (fun k => V1 m c (pre0.ref k)) = tbl m := by
  funext k
  obtain rfl := dev_eq c
  match k with
  | ⟨0, _⟩ => exact StableHlo.after_of_writes_sub hostOps0 _ hostOps0_writes (r := main_arg0) (by decide)

theorem hF0 (c : Dev nD) (w : Fin (cfg0 (adm m 0)).W) :
    (dat0 (V1 m) (adm m 0) hw c).arrAt w (cfg0 (adm m 0)).N = V2 m hw c (Pipeline.arrRef spec0 w) := (W2_arr m hw c w).symm
theorem hrest0 (c : Dev nD) : ∀ b, b ∉ Finset.univ.image (Pipeline.arrRef spec0) → V2 m hw c b = V1 m c b :=
  fun b hb => W2_of_ne m hw c b fun w e => hb (Finset.mem_image.mpr ⟨w, Finset.mem_univ _, e⟩)

theorem rest0_split (c : Dev nD) :
    (Pipeline.unscopedRest (Ix := Unit) (Name := ℕ) (U := Pipeline.UD sig nD τ) (Lvl := ℕ) spec0 c (V1 m c) : sProp 𝕄)
      = iprop(Pipeline.prefHeld pre0 c (fun _ => fullShare) (tbl m)
          ∗ (bigSep H0 fun b => (((c : Thread nD τ)).loc b) ↦{fullShare} V1 m c b)
          ∗ (bigSep (Pipeline.restRefsP sig pre0 spec0 \ H0) fun b => (((c : Thread nD τ)).loc b) ↦{fullShare} V1 m c b)) := by
  rw [Pipeline.unscopedRest_split preFacts0 c (V1 m c), tbl_entry m c, Pipeline.unscopedRestP_sdiff pre0 spec0 H0 H0_sub c (V1 m c)]

set_option backward.isDefEq.respectTransparency.types false in

def reg0 : Pipeline.RegionSeg (pcfgs (F := Ideal)) (adm m) (pdats m hw) () defs₀ 𝒱₀ L lv 0 where
  win := (launch0 (F := Ideal)).win.to₀
  block_pos := (launch0 (F := Ideal)).block_pos
  stage_whole := (launch0 (F := Ideal)).stage_whole
  K := Fin 1
  osem := osem0
  ho := ownSemFacts0
  hbody c := (body_obligation0 (V1 m) (adm m 0) hw c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m hw c) ∗ R c)
  X c := iprop((∃ r, prngReg c r) ∗ Pipeline.ownSems0 (Ix := Unit) (Name := ℕ) (U := Pipeline.UD sig nD τ) (Lvl := ℕ) (Val := Elt Ideal) (τ := τ) osem0 c
    ∗ (bigSep H0 fun b => (((c : Thread nD τ)).loc b) ↦{fullShare} V1 m c b))
  Y c := iprop((∃ r, prngReg c r) ∗ (bigSep H0 fun b => (((c : Thread nD τ)).loc b) ↦{fullShare} V1 m c b)
    ∗ Pipeline.prefHeld pre0 c (fun _ => fullShare) (tbl m))
  Z c := bigSep (Pipeline.restRefsP sig pre0 spec0 \ H0) fun b => (((c : Thread nD τ)).loc b) ↦{fullShare} V1 m c b
  hentry c := by
    have hsplit := Pipeline.arrays_of_unscopedBufs (p := 0) (pcfgs (F := Ideal)) (adm m) (pdats m hw) (launch0 (F := Ideal)).win (launch0 (F := Ideal)).arr_whole c
      ((pdats m hw 0 c).share_full fun _ => rfl) (V1 m c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest0_split m c)) $$ Hrest
    icases H' with ⟨Htab, HH, HR⟩
    imodintro
    isplitl [Ha]; · iexact Ha
    isplitl [Htab]; · iexact Htab
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m hw 0 c).Φ 0 = Φ0 (V1 m) (adm m 0) c from rfl]; unfold Φ0; rw [Pipeline.ΦD_eq]
    iintro ⟨⟨Hp, Ho, HH⟩, Htab, Hr⟩
    isplitl [Hr Hp Ho HH]
    · isplitl [Hr]; · iexact Hr
      isplitl [Hp]; · iexact Hp
      isplitl [Ho]; · iexact Ho
      iexact HH
    iexact Htab
  hout c := by
    rw [show (pdats m hw 0 c).Φ (Fin.last _) = Φ0 (V1 m) (adm m 0) c from rfl]; unfold Φ0; rw [Pipeline.ΦD_eq]
    iintro ⟨⟨Hr, Hp, Ho, HH⟩, Htab⟩
    isplitl [Hp HH Htab]
    · isplitl [Hp]; · iexact Hp
      isplitl [HH]; · iexact HH
      iexact Htab
    isplitl [Ho]; · iexact Ho
    iexact Hr
  hexit c := by
    have hjoin := Pipeline.unscopedBufs_of_arrays (p := 0) (pcfgs (F := Ideal)) (adm m) (Ix := Unit) (Name := ℕ) (U := Pipeline.UD sig nD τ) (Lvl := ℕ)
      (launch0 (F := Ideal)).win (launch0 (F := Ideal)).arr_whole c (pdats m hw) ((pdats m hw 0 c).share_full fun _ => rfl)
      (V1 m c) (V2 m hw c) ((pdats m hw 0 c).arrAt · (cfg0 (adm m 0)).N) (hF0 m hw c) (hrest0 m hw c)
    rw [Pipeline.unscopedBufs_held] at hjoin
    iintro ⟨Ha, HO, ⟨HY, HH, Htab⟩, HR⟩
    ihave Hrest := (Entails.of_eq (rest0_split m c).symm) $$ [Htab HH HR]
    · isplitl [Htab]; · iexact Htab
      isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := Ideal)) (adm m) (pdats m hw) () defs₀ 𝒱₀ L lv 2 where
  win := (launch2 (F := Ideal)).win.to₀
  block_pos := (launch2 (F := Ideal)).block_pos
  stage_whole := (launch2 (F := Ideal)).stage_whole
  K := PEmpty
  osem k := k.elim
  ho := Pipeline.OwnSemFacts.none _
  hbody c := (body_obligation2 (V6 m hw) c).loose
  hwaits := Pipeline.hwaits_of_owed_zero _ _ _ _ L lv 2 fun _ _ => rfl
  pre c := iprop(StableHlo.held (c : Thread nD τ) (Pipeline.ucRefs τ sig) (W6 m hw c) ∗ R c)
  post c := iprop(StableHlo.held (c : Thread nD τ) (Pipeline.ucRefs τ sig) (W7 m hw c) ∗ R c)
  X c := iprop(∃ r, prngReg c r)
  Y c := iprop(∃ r, prngReg c r)
  Z c := Pipeline.unscopedRest (Ix := Unit) (Name := ℕ) (U := Pipeline.UD sig nD τ) (Lvl := ℕ) spec2 c (V6 m hw c)
  hentry c := by
    rw [Pipeline.ownSems0_none]
    have hsplit := Pipeline.arrays_of_unscopedBufs (p := 2) (pcfgs (F := Ideal)) (adm m) (pdats m hw) (launch2 (F := Ideal)).win (launch2 (F := Ideal)).arr_whole c
      ((pdats m hw 2 c).share_full fun _ => rfl) (V6 m hw c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hw 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m hw 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) (adm m) (Ix := Unit) (Name := ℕ) (U := Pipeline.UD sig nD τ) (Lvl := ℕ)
      (launch2 (F := Ideal)).win (launch2 (F := Ideal)).arr_whole c (pdats m hw) ((pdats m hw 2 c).share_full fun _ => rfl)
      (V6 m hw c) (V7 m hw c) ((pdats m hw 2 c).arrAt · cfg2.N) (hF2 m hw c) (hrest2 m hw c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := Ideal)) (adm m) (pdats m hw) () defs₀ 𝒱₀ L lv 3 where
  win := (launch3 (F := Ideal)).win.to₀
  block_pos := (launch3 (F := Ideal)).block_pos
  stage_whole := (launch3 (F := Ideal)).stage_whole
  K := PEmpty
  osem k := k.elim
  ho := Pipeline.OwnSemFacts.none _
  hbody c := body_obligation3 (V8 m hw) c
  hwaits := Pipeline.hwaits_of_owed_zero _ _ _ _ L lv 3 fun _ _ => rfl
  pre c := iprop(StableHlo.held (c : Thread nD τ) (Pipeline.ucRefs τ sig) (W8 m hw c) ∗ R c)
  post c := iprop(StableHlo.held (c : Thread nD τ) (Pipeline.ucRefs τ sig) (W9 m hw c) ∗ R c)
  X c := iprop(∃ r, prngReg c r)
  Y c := iprop(∃ r, prngReg c r)
  Z c := Pipeline.unscopedRest (Ix := Unit) (Name := ℕ) (U := Pipeline.UD sig nD τ) (Lvl := ℕ) spec3 c (V8 m hw c)
  hentry c := by
    rw [Pipeline.ownSems0_none]
    have hsplit := Pipeline.arrays_of_unscopedBufs (p := 3) (pcfgs (F := Ideal)) (adm m) (pdats m hw) (launch3 (F := Ideal)).win (launch3 (F := Ideal)).arr_whole c
      ((pdats m hw 3 c).share_full fun _ => rfl) (V8 m hw c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hw 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m hw 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := Ideal)) (adm m) (Ix := Unit) (Name := ℕ) (U := Pipeline.UD sig nD τ) (Lvl := ℕ)
      (launch3 (F := Ideal)).win (launch3 (F := Ideal)).arr_whole c (pdats m hw) ((pdats m hw 3 c).share_full fun _ => rfl)
      (V8 m hw c) (V9 m hw c) ((pdats m hw 3 c).arrAt · cfg3.N) (hF3 m hw c) (hrest3 m hw c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := Pipeline.UD sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W11 m hw c) ∗ ∃ r, prngReg c r)

abbrev mainSegs : List (Pipeline.Seg (pcfgs (F := Ideal)) (adm m) (pdats m hw) () defs₀ 𝒱₀ L lv) :=
  [ .host (hseg hostOps0 hostOps0_sub hostOps0_fresh (W0 m)),
    .region (reg0 m hw),
    .host (hseg hostOps1 hostOps1_sub hostOps1_fresh (W2 m hw)),
    .region (reg1 m hw),
    .host (hseg hostOps2 hostOps2_sub hostOps2_fresh (W4 m hw)),
    .host (hseg hostOps2_1 hostOps2_1_sub hostOps2_1_fresh (W5 m hw)),
    .region (reg2 m hw),
    .host (hseg hostOps3 hostOps3_sub hostOps3_fresh (W7 m hw)),
    .region (reg3 m hw),
    .host (hseg hostOps4 hostOps4_sub hostOps4_fresh (W9 m hw)),
    .host (hseg hostOps4_1 hostOps4_1_sub hostOps4_1_fresh (W10 m hw)) ]

theorem main_run (c : Dev nD) : main (F := Ideal) c = Pipeline.Seg.run (mainSegs m hw) := (main_chain c).trans (by chain_rfl)

variable (ρ : Dev nD → PrngReg)

set_option backward.isDefEq.respectTransparency.types false in

theorem run : θ_run defs (onTc (τ := τ) (main (F := Ideal))) ⟨m, fun _ => 0, ρ⟩ (fun r => ∀ c : Dev nD,
      ∀ b ∈ Pipeline.ucRefs τ sig, r.2.mem (((c : Thread nD τ)).1, b) = W11 m hw c b) :=
  Pipeline.θ_run_regions_kit (pcfgs (F := Ideal)) (adm m) (pdats m hw) () (cellOf_inj (adm m)) embL defs₀ 𝒱₀ L lv m ρ main (mainSegs m hw)
    (fun c Q => by rw [main_run m hw c])
    (by simp only [mainSegs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := Ideal)) (adm m)) (cellOf_inj (adm m))) (Pipeline.launchToks (Pipeline.pin (pcfgs (F := Ideal)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hw)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m hw c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m hw c b)
    (hfin := fun c s' => by
      iintro ⟨⟨Hh, -⟩, HSI⟩
      unfold StableHlo.held
      imodintro
      iapply (pointsTo_read_all (Pipeline.ucRefs τ sig) (fun b => (((c : Thread nD τ)).1, b)) (W11 m hw c) s')
      isplitl [Hh] <;> iassumption)
    (hQ := fun s h c => h c)

end Cert.KernelIdeal.Hand

end
-- ==== Proof.KernelIdeal.KeepI.lean ====
import proofs.«418227_j23983097381305_3_alg».proof.Proof.KernelIdeal.RunI

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ)
variable (hw : k0_chk1 (tword0 (F := Ideal) (tbl m 0)))

theorem W1_keep (c : Dev nD) (r : Ref sig .tc) (h : r ∉ hostOps0_W) :
    W1 m c (Proc.devRef .tc r) = W0 m c (Proc.devRef .tc r) :=
  StableHlo.after_of_writes_sub hostOps0 _ hostOps0_writes h

theorem W3_keep (c : Dev nD) (r : Ref sig .tc) (h : r ∉ hostOps1_W) :
    W3 m hw c (Proc.devRef .tc r) = W2 m hw c (Proc.devRef .tc r) :=
  StableHlo.after_of_writes_sub hostOps1 _ hostOps1_writes h

theorem W5_keep (c : Dev nD) (r : Ref sig .tc) (h : r ∉ hostOps2_W) :
    W5 m hw c (Proc.devRef .tc r) = W4 m hw c (Proc.devRef .tc r) :=
  StableHlo.after_of_writes_sub hostOps2 _ hostOps2_writes h

theorem W6_keep (c : Dev nD) (r : Ref sig .tc) (h : r ∉ hostOps2_1_W) :
    W6 m hw c (Proc.devRef .tc r) = W5 m hw c (Proc.devRef .tc r) :=
  StableHlo.after_of_writes_sub hostOps2_1 _ hostOps2_1_writes h

theorem W8_keep (c : Dev nD) (r : Ref sig .tc) (h : r ∉ hostOps3_W) :
    W8 m hw c (Proc.devRef .tc r) = W7 m hw c (Proc.devRef .tc r) :=
  StableHlo.after_of_writes_sub hostOps3 _ hostOps3_writes h

theorem W10_keep (c : Dev nD) (r : Ref sig .tc) (h : r ∉ hostOps4_W) :
    W10 m hw c (Proc.devRef .tc r) = W9 m hw c (Proc.devRef .tc r) :=
  StableHlo.after_of_writes_sub hostOps4 _ hostOps4_writes h

theorem W11_keep (c : Dev nD) (r : Ref sig .tc) (h : r ∉ hostOps4_1_W) :
    W11 m hw c (Proc.devRef .tc r) = W10 m hw c (Proc.devRef .tc r) :=
  StableHlo.after_of_writes_sub hostOps4_1 _ hostOps4_1_writes h

theorem W2_keep (c : Dev nD) (r : Ref sig .tc) (h : r ∉ ([main_v2_0, main_v2_1, main_v2_2] : List (Ref sig .tc))) :
    W2 m hw c (Proc.devRef .tc r) = W1 m c (Proc.devRef .tc r) := by
  by_cases hex : ∃ w, Pipeline.arrRef spec0 w = r
  · obtain ⟨w, rfl⟩ := hex
    exact (W2_arr m hw c w).trans (((dat0 (V1 m) (adm m 0) hw c).arrAt_in w
      ((by decide : ∀ w : Fin 7, Pipeline.arrRef spec0 w ∉ [main_v2_0, main_v2_1, main_v2_2] → (spec0 w).isOut = false) w h) _).trans (A_eq0 (V1 m) (adm m 0) hw c w))
  · exact W2_of_ne m hw c r fun w e => hex ⟨w, e⟩

theorem W4_keep (c : Dev nD) (r : Ref sig .tc) (h : r ∉ ([main_v5] : List (Ref sig .tc))) :
    W4 m hw c (Proc.devRef .tc r) = W3 m hw c (Proc.devRef .tc r) := by
  by_cases hex : ∃ w, Pipeline.arrRef spec1 w = r
  · obtain ⟨w, rfl⟩ := hex
    exact (W4_arr m hw c w).trans (((dat1 (V3 m hw) c).arrAt_in w
      ((by decide : ∀ w : Fin 4, Pipeline.arrRef spec1 w ∉ [main_v5] → (spec1 w).isOut = false) w h) _).trans (A_eq1 (V3 m hw) c w))
  · exact W4_of_ne m hw c r fun w e => hex ⟨w, e⟩

theorem W7_keep (c : Dev nD) (r : Ref sig .tc) (h : r ∉ ([main_v9_0, main_v9_1] : List (Ref sig .tc))) :
    W7 m hw c (Proc.devRef .tc r) = W6 m hw c (Proc.devRef .tc r) := by
  by_cases hex : ∃ w, Pipeline.arrRef spec2 w = r
  · obtain ⟨w, rfl⟩ := hex
    exact (W7_arr m hw c w).trans (((dat2 (V6 m hw) c).arrAt_in w
      ((by decide : ∀ w : Fin 8, Pipeline.arrRef spec2 w ∉ [main_v9_0, main_v9_1] → (spec2 w).isOut = false) w h) _).trans (A_eq2 (V6 m hw) c w))
  · exact W7_of_ne m hw c r fun w e => hex ⟨w, e⟩

theorem W9_keep (c : Dev nD) (r : Ref sig .tc) (h : r ∉ ([main_v39] : List (Ref sig .tc))) :
    W9 m hw c (Proc.devRef .tc r) = W8 m hw c (Proc.devRef .tc r) := by
  by_cases hex : ∃ w, Pipeline.arrRef spec3 w = r
  · obtain ⟨w, rfl⟩ := hex
    exact (W9_arr m hw c w).trans (((dat3 (V8 m hw) c).arrAt_in w
      ((by decide : ∀ w : Fin 4, Pipeline.arrRef spec3 w ∉ [main_v39] → (spec3 w).isOut = false) w h) _).trans (A_eq3 (V8 m hw) c w))
  · exact W9_of_ne m hw c r fun w e => hex ⟨w, e⟩

abbrev argRefs : List (Ref sig .tc) :=
  [main_arg0, main_arg1, main_arg2, main_arg3, main_arg4, main_arg5, main_arg6, main_arg7, main_arg8, main_arg9, main_arg10,
    main_arg11, main_arg12, main_arg13]

-- No item of @main writes an argument, so at every boundary an argument's buffer holds what it was launched with.
theorem W1_arg (c : Dev nD) (r : Ref sig .tc) (h : r ∈ argRefs) : W1 m c (Proc.devRef .tc r) = m ((c.tc : Thread nD τ).loc r) :=
  W1_keep m c r ((by decide : ∀ r ∈ argRefs, r ∉ hostOps0_W) r h)
theorem W2_arg (c : Dev nD) (r : Ref sig .tc) (h : r ∈ argRefs) : W2 m hw c (Proc.devRef .tc r) = m ((c.tc : Thread nD τ).loc r) :=
  (W2_keep m hw c r ((by decide : ∀ r ∈ argRefs, r ∉ [main_v2_0, main_v2_1, main_v2_2]) r h)).trans (W1_arg m c r h)
theorem W3_arg (c : Dev nD) (r : Ref sig .tc) (h : r ∈ argRefs) : W3 m hw c (Proc.devRef .tc r) = m ((c.tc : Thread nD τ).loc r) :=
  (W3_keep m hw c r ((by decide : ∀ r ∈ argRefs, r ∉ hostOps1_W) r h)).trans (W2_arg m hw c r h)
theorem W4_arg (c : Dev nD) (r : Ref sig .tc) (h : r ∈ argRefs) : W4 m hw c (Proc.devRef .tc r) = m ((c.tc : Thread nD τ).loc r) :=
  (W4_keep m hw c r ((by decide : ∀ r ∈ argRefs, r ∉ [main_v5]) r h)).trans (W3_arg m hw c r h)
theorem W5_arg (c : Dev nD) (r : Ref sig .tc) (h : r ∈ argRefs) : W5 m hw c (Proc.devRef .tc r) = m ((c.tc : Thread nD τ).loc r) :=
  (W5_keep m hw c r ((by decide : ∀ r ∈ argRefs, r ∉ hostOps2_W) r h)).trans (W4_arg m hw c r h)
theorem W6_arg (c : Dev nD) (r : Ref sig .tc) (h : r ∈ argRefs) : W6 m hw c (Proc.devRef .tc r) = m ((c.tc : Thread nD τ).loc r) :=
  (W6_keep m hw c r ((by decide : ∀ r ∈ argRefs, r ∉ hostOps2_1_W) r h)).trans (W5_arg m hw c r h)
theorem W7_arg (c : Dev nD) (r : Ref sig .tc) (h : r ∈ argRefs) : W7 m hw c (Proc.devRef .tc r) = m ((c.tc : Thread nD τ).loc r) :=
  (W7_keep m hw c r ((by decide : ∀ r ∈ argRefs, r ∉ [main_v9_0, main_v9_1]) r h)).trans (W6_arg m hw c r h)
theorem W8_arg (c : Dev nD) (r : Ref sig .tc) (h : r ∈ argRefs) : W8 m hw c (Proc.devRef .tc r) = m ((c.tc : Thread nD τ).loc r) :=
  (W8_keep m hw c r ((by decide : ∀ r ∈ argRefs, r ∉ hostOps3_W) r h)).trans (W7_arg m hw c r h)
theorem W11_arg (c : Dev nD) (r : Ref sig .tc) (h : r ∈ argRefs) : W11 m hw c (Proc.devRef .tc r) = m ((c.tc : Thread nD τ).loc r) :=
  (W11_keep m hw c r ((by decide : ∀ r ∈ argRefs, r ∉ hostOps4_1_W) r h)).trans <|
    (W10_keep m hw c r ((by decide : ∀ r ∈ argRefs, r ∉ hostOps4_W) r h)).trans <|
    (W9_keep m hw c r ((by decide : ∀ r ∈ argRefs, r ∉ [main_v39]) r h)).trans (W8_arg m hw c r h)

-- Read at the end of the run, an argument's buffer holds what it was launched with.
theorem arg_kept (c : Dev nD) {mem : (ℓ : Loc nD τ sig) → Buf (Elt Ideal) ℓ}
    (h : ∀ b ∈ Pipeline.ucRefs τ sig, mem (((c : Thread nD τ)).1, b) = W11 m hw c b) (b : Ref sig .tc) (hb : b ∈ argRefs) :
    mem ((c.tc : Thread nD τ).loc b) = m ((c.tc : Thread nD τ).loc b) :=
  (h _ (mem_uc b ((by decide : ∀ b ∈ argRefs, ¬ (Proc.devRef .tc b : DevRef τ sig).isScoped) b hb))).trans (W11_arg m hw c b hb)

-- The arguments of @main as launched.
abbrev arg0 (c : Dev nD) := m ((c.tc : Thread nD τ).loc main_arg0)
abbrev arg1 (c : Dev nD) := m ((c.tc : Thread nD τ).loc main_arg1)
abbrev arg2 (c : Dev nD) := m ((c.tc : Thread nD τ).loc main_arg2)
abbrev arg3 (c : Dev nD) := m ((c.tc : Thread nD τ).loc main_arg3)
abbrev arg4 (c : Dev nD) := m ((c.tc : Thread nD τ).loc main_arg4)
abbrev arg5 (c : Dev nD) := m ((c.tc : Thread nD τ).loc main_arg5)
abbrev arg6 (c : Dev nD) := m ((c.tc : Thread nD τ).loc main_arg6)
abbrev arg7 (c : Dev nD) := m ((c.tc : Thread nD τ).loc main_arg7)
abbrev arg8 (c : Dev nD) := m ((c.tc : Thread nD τ).loc main_arg8)
abbrev arg9 (c : Dev nD) := m ((c.tc : Thread nD τ).loc main_arg9)
abbrev arg10 (c : Dev nD) := m ((c.tc : Thread nD τ).loc main_arg10)
abbrev arg11 (c : Dev nD) := m ((c.tc : Thread nD τ).loc main_arg11)
abbrev arg12 (c : Dev nD) := m ((c.tc : Thread nD τ).loc main_arg12)
abbrev arg13 (c : Dev nD) := m ((c.tc : Thread nD τ).loc main_arg13)

end Cert.KernelIdeal.Hand

end
-- ==== Proof.KernelIdeal.HostGlue.lean ====
import proofs.«418227_j23983097381305_3_alg».proof.Proof.Gen.KernelIdeal.Launch
import proofs.«418227_j23983097381305_3_alg».proof.Proof.RefStages
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F] (W : Valuation τ sig (Elt F))
variable (x0 : (⟨Cert.ReferenceIdeal.S1, .i32⟩ : BufTy).Contents (Elt F)) (x1 : (⟨Cert.ReferenceIdeal.S1x1x2048, .f32⟩ : BufTy).Contents (Elt F)) (x2 : (⟨Cert.ReferenceIdeal.S64x2048, .f32⟩ : BufTy).Contents (Elt F)) (x3 : (⟨Cert.ReferenceIdeal.S50257x2048, .f32⟩ : BufTy).Contents (Elt F))
  (x4 : (⟨Cert.ReferenceIdeal.S64x4096, .f32⟩ : BufTy).Contents (Elt F)) (x5 : (⟨Cert.ReferenceIdeal.S64, .f32⟩ : BufTy).Contents (Elt F)) (x6 : (⟨Cert.ReferenceIdeal.S2048x4096, .f32⟩ : BufTy).Contents (Elt F)) (x7 : (⟨Cert.ReferenceIdeal.S2048, .f32⟩ : BufTy).Contents (Elt F))
  (x8 : (⟨Cert.ReferenceIdeal.S6144x2048, .f32⟩ : BufTy).Contents (Elt F)) (x9 : (⟨Cert.ReferenceIdeal.S6144x2048, .f32⟩ : BufTy).Contents (Elt F)) (x10 : (⟨Cert.ReferenceIdeal.S6144, .f32⟩ : BufTy).Contents (Elt F)) (x11 : (⟨Cert.ReferenceIdeal.S6144, .f32⟩ : BufTy).Contents (Elt F))
  (x12 : (⟨Cert.ReferenceIdeal.S50257x2048, .f32⟩ : BufTy).Contents (Elt F)) (x13 : (⟨Cert.ReferenceIdeal.S50257, .f32⟩ : BufTy).Contents (Elt F))

-- A vector reshaped to one row holds at (0, j) its entry j.
theorem row_of_cast {n : ℕ} {α : Type} {r : (⟨2, ![1, n]⟩ : Shape).Idx → α} {v : (⟨1, ![n]⟩ : Shape).Idx → α}
    {h : (⟨1, ![n]⟩ : Shape).ShapeCasts ⟨2, ![1, n]⟩} (e : r = shapeCast ⟨2, ![1, n]⟩ v h) (j : Fin n) : r (ix2 (0 : Fin 1) j) = v (ix1 j) :=
  e ▸ shapeCast_a_1a_apply v h 0 j

theorem glue_h0 (h : W (Proc.devRef .tc main_arg1) = x1) :
    StableHlo.after hostOps0 W (Proc.devRef .tc main_v0) = Cert.ReferenceIdeal.Read.val_main_v7 (F := F) x1 := by
  have e : StableHlo.after hostOps0 W (Proc.devRef .tc main_v0) = shapeCast S1x2048 (W (Proc.devRef .tc main_arg1)) shapeCasts_S1x1x2048_S1x2048 := by
    dsimp only [hostOps0]; after_results <;> rfl
  rw [e, h]; rfl

theorem glue_bias0 (j : Fin 64) :
    StableHlo.after hostOps0 W (Proc.devRef .tc main_v1) (ix2 (0 : Fin 1) j) = W (Proc.devRef .tc main_arg5) (ix1 j) :=
  row_of_cast (h := shapeCasts_S64_S1x64) (by dsimp only [hostOps0]; after_results <;> rfl) j

theorem glue_cat (h0 : W (Proc.devRef .tc main_v2_0) = Cert.ReferenceIdeal.Read.val_main_v6 (F := F) x0 x3)
    (h2 : W (Proc.devRef .tc main_v2_2) = Cert.ReferenceIdeal.Read.val_main_v24 (F := F) x0 x1 x2 x3 x4 x5) :
    StableHlo.after hostOps1 W (Proc.devRef .tc main_v3) = Cert.ReferenceIdeal.Read.val_main_v25 (F := F) x0 x1 x2 x3 x4 x5 := by
  have e : StableHlo.after hostOps1 W (Proc.devRef .tc main_v3) = concatenate S1x4096 1 [⟨S1x2048, W (Proc.devRef .tc main_v2_0)⟩, ⟨S1x2048, W (Proc.devRef .tc main_v2_2)⟩] concatenates_S1x2048_S1x2048_S1x4096_d1 := by
    dsimp only [hostOps1]; after_results <;> rfl
  rw [e, h0, h2]; rfl

theorem glue_bias1 (j : Fin 2048) :
    StableHlo.after hostOps1 W (Proc.devRef .tc main_v4) (ix2 (0 : Fin 1) j) = W (Proc.devRef .tc main_arg7) (ix1 j) :=
  row_of_cast (h := shapeCasts_S2048_S1x2048) (by dsimp only [hostOps1]; after_results <;> rfl) j

theorem glue_relu (h5 : W (Proc.devRef .tc main_v5) = Cert.ReferenceIdeal.Read.val_main_v29 (F := F) x0 x1 x2 x3 x4 x5 x6 x7) :
    StableHlo.after hostOps2 W (Proc.devRef .tc main_v6) = Cert.ReferenceIdeal.Read.val_main_v30 (F := F) x0 x1 x2 x3 x4 x5 x6 x7 := by
  have e : StableHlo.after hostOps2 W (Proc.devRef .tc main_v6) = maximumf (W (Proc.devRef .tc main_v5)) (broadcastInDim S1x2048 ![] bcast_S_S1x2048 (constant (F := F) S_ .f32 0x00000000#32)) := by
    dsimp only [hostOps2]; after_results <;> rfl
  rw [e, h5]; rfl

theorem glue_bias2_ih (j : Fin 6144) :
    StableHlo.after hostOps2_1 W (Proc.devRef .tc main_v7) (ix2 (0 : Fin 1) j) = W (Proc.devRef .tc main_arg10) (ix1 j) :=
  row_of_cast (h := shapeCasts_S6144_S1x6144) (by dsimp only [hostOps2_1]; after_results <;> rfl) j

theorem glue_bias2_hh (j : Fin 6144) :
    StableHlo.after hostOps2_1 W (Proc.devRef .tc main_v8) (ix2 (0 : Fin 1) j) = W (Proc.devRef .tc main_arg11) (ix1 j) :=
  row_of_cast (h := shapeCasts_S6144_S1x6144) (by dsimp only [hostOps2_1]; after_results <;> rfl) j

theorem glue_gru (h0 : W (Proc.devRef .tc main_v9_0) = Cert.ReferenceIdeal.Read.val_main_v34 (F := F) x0 x1 x2 x3 x4 x5 x6 x7 x8 x10)
    (h1 : W (Proc.devRef .tc main_v9_1) = Cert.ReferenceIdeal.Read.val_main_v38 (F := F) x1 x9 x11)
    (hh : W (Proc.devRef .tc main_v0) = Cert.ReferenceIdeal.Read.val_main_v7 (F := F) x1) :
    StableHlo.after hostOps3 W (Proc.devRef .tc main_v37) = Cert.ReferenceIdeal.Read.val_main_v66 (F := F) x0 x1 x2 x3 x4 x5 x6 x7 x8 x9 x10 x11 := by
  dsimp only [hostOps3]
  after_results_simp
  rw [h0, h1, hh]
  rfl

theorem glue_bias3 (j : Fin 50257) :
    StableHlo.after hostOps3 W (Proc.devRef .tc main_v38) (ix2 (0 : Fin 1) j) = W (Proc.devRef .tc main_arg13) (ix1 j) :=
  row_of_cast (h := shapeCasts_S50257_S1x50257) (by dsimp only [hostOps3]; after_results_simp <;> rfl) j

-- A cast along a type equation and back is the identity.
theorem glue_ofBuf_toBuf {T : BufTy} {Val : EltTy → Type} (y : TRef sig T) (z : T.Contents Val) : y.ofBuf (y.toBuf z) = z := by
  obtain ⟨r, h, h2, h3⟩ := y
  subst h
  rfl

theorem glue_toBuf_ofBuf {T : BufTy} {Val : EltTy → Type} (y : TRef sig T) (w : y.ref.ty.Contents Val) : y.toBuf (y.ofBuf w) = w := by
  obtain ⟨r, h, h2, h3⟩ := y
  subst h
  rfl

theorem glue_logsm (h39 : W (Proc.devRef .tc main_v39) = Cert.ReferenceIdeal.Read.val_main_v70 (F := F) x0 x1 x2 x3 x4 x5 x6 x7 x8 x9 x10 x11 x12 x13) :
    StableHlo.after hostOps4 W (Proc.devRef .tc main_v40) = Cert.ReferenceIdeal.Read.val_main_v71 (F := F) x0 x1 x2 x3 x4 x5 x6 x7 x8 x9 x10 x11 x12 x13 := by
  dsimp only [hostOps4]
  after_results_simp
  simp only [glue_ofBuf_toBuf]
  refine (congrArg _ ?_).trans (glue_toBuf_ofBuf _ _)
  rw [show (TRef.of main_v39 : TRef sig ⟨S1x50257, .f32⟩).ofBuf (W (Proc.devRef .tc main_v39)) = Cert.ReferenceIdeal.Read.val_main_v70 (F := F) x0 x1 x2 x3 x4 x5 x6 x7 x8 x9 x10 x11 x12 x13 from h39]
  rfl

theorem glue_out (h37 : W (Proc.devRef .tc main_v37) = Cert.ReferenceIdeal.Read.val_main_v66 (F := F) x0 x1 x2 x3 x4 x5 x6 x7 x8 x9 x10 x11) :
    StableHlo.after hostOps4_1 W (Proc.devRef .tc main_v41) = Cert.ReferenceIdeal.Read.val_main_v72 (F := F) x0 x1 x2 x3 x4 x5 x6 x7 x8 x9 x10 x11 := by
  have e : StableHlo.after hostOps4_1 W (Proc.devRef .tc main_v41) = broadcastInDim S1x1x2048 ![1, 2] bcast_S1x2048_S1x1x2048_1_2 (W (Proc.devRef .tc main_v37)) := by
    dsimp only [hostOps4_1]; after_results <;> rfl
  rw [e, h37]; rfl

end Cert.KernelIdeal.Hand

end
-- ==== Proof.KernelIdeal.R0C.lean ====
import proofs.«418227_j23983097381305_3_alg».proof.Proof.KernelIdeal.R0
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

theorem tword0_ix (xt : (pre0.ref 0).ty.Contents (Elt F)) : tword0 (F := F) xt = xt (ix1 (0 : Fin 1)) :=
  (tword0_eq xt (ix1 (0 : Fin 1))).trans rfl

theorem chk_of_lt (xt : (pre0.ref 0).ty.Contents (Elt F)) (h : (xt (ix1 (0 : Fin 1))).toNat < 50257) :
    k0_chk1 (tword0 (F := F) xt) := by
  rw [tword0_ix]
  intro b
  match b with
  | ⟨0, _⟩ => show (xt (ix1 (0 : Fin 1))).toNat + 1 ≤ 50257; omega
  | ⟨1, _⟩ => show 0 + 2048 ≤ 2048; omega

end Cert.KernelIdeal.Hand

end
-- ==== Proof.LibGatherScatter.lean ====
import Idealize.ShloMosaic.Lib.StableHlo.Predicate
import Idealize.ShloMosaic.Lib.ValueIdx

namespace Idealize.ShloMosaic.RowOps

open Idealize.ShloMosaic Idealize.ShloMosaic.ValueIdx Idealize.ShloMosaic.StableHlo.Predicate

def clampRow {n w : Nat} (N : Nat) (hN : 0 < N) (idx : IVec ⟨2, ![n, 1]⟩ w) (e : Fin n) : Fin N :=
  ⟨min (idx (ixP e)).toInt.toNat (N - 1), by omega⟩

private theorem getElem_singleton_of_eq {β : Type} {l : List β} {b : β} (h : l = [b]) (k : Nat) (hk : k < l.length) :
    l[k] = b :=
  List.mem_singleton.1 (h ▸ List.getElem_mem hk)

/-- Axis 0 is collapsed and start-indexed, so it carries the clamped start alone; axis 1 is the whole-row offset axis. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  have hbd : d.batchDims = [0] := by
    show Shape.kept _ d.offsetDims = [0]
    rw [hoff]
    show (List.finRange 2).filter (fun a : Fin 2 => a ∉ [(1 : Fin 2)]) = [0]
    decide
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

end Idealize.ShloMosaic.RowOps
-- ==== Proof.RefGather.lean ====
import proofs.«418227_j23983097381305_3_alg».proof.Proof.RefStages
import proofs.«418227_j23983097381305_3_alg».proof.Proof.LibGatherScatter
import Idealize.ShloMosaic.Lib.Affine
import Idealize.ShloMosaic.Lib.StableHlo.Predicate
import Idealize.ShloMosaic.Lib.ValueIdx

noncomputable section

namespace Cert.RefGather

open Idealize.ShloMosaic Idealize.ShloMosaic.ValueIdx Idealize.ShloMosaic.StableHlo.Predicate
open Cert.ReferenceIdeal Cert.ReferenceIdeal.Gen Cert.ReferenceIdeal.Read

/-- A word below 50257 is below 2³¹, so it reads the same signed and unsigned and is not negative. -/
theorem not_neg_of_lt (w : BitVec 32) (hlt : w.toNat < 50257) : IntOp.cmpi .slt w 0#32 = 0#1 := by
  apply eq_zero_of_ne_one
  intro h1
  rw [IntOp.cmpi_slt, toInt_eq_toNat_of_lt (by omega), show (0#32 : BitVec 32).toInt = 0 from by decide] at h1
  omega

theorem wrap_of_lt (w a : BitVec 32) (hlt : w.toNat < 50257) : Scalar.select (IntOp.cmpi .slt w 0#32) a w = w := by
  rw [not_neg_of_lt w hlt, select_zero]

/-- The wrap leaves a word below 50257 as it is, and clamping it into [0, 50256] changes nothing: the row read is row `word`. -/
theorem ref_row (x0 : (⟨S1, .i32⟩ : BufTy).Contents (Elt Ideal)) (x3 : (⟨S50257x2048, .f32⟩ : BufTy).Contents (Elt Ideal))
    (hlt : (x0 (ix1 (0 : Fin 1))).toNat < 50257) (k : Fin 2048) :
    Cert.ReferenceIdeal.Read.val_main_v6 (F := Ideal) x0 x3 (ix2 (0 : Fin 1) k)
      = x3 (ix2 (⟨(x0 (ix1 (0 : Fin 1))).toNat, hlt⟩ : Fin 50257) k) := by
  have hw : val_main_v5 (F := Ideal) x0 (ixP (0 : Fin 1)) = x0 (ix1 (0 : Fin 1)) := by
    rw [val_main_v5_apply, val_main_v4_apply]
    have hi : idx_main_v5 (ixP (0 : Fin 1)) = ix1 (0 : Fin 1) := by
      funext a; match a with | ⟨0, _⟩ => rfl
    rw [hi]
    exact wrap_of_lt _ _ hlt
  refine (RowOps.gather_rows gather_S50257x2048_S1x1_S1x2048_1_0_n_n_0_1_12048 rfl rfl rfl rfl rfl rfl x3
    (val_main_v5 (F := Ideal) x0) 0 k (by decide)).trans (congrArg (fun r => x3 (ix2 r k)) (Fin.ext ?_))
  show min (val_main_v5 (F := Ideal) x0 (ixP (0 : Fin 1))).toInt.toNat (50257 - 1) = (x0 (ix1 (0 : Fin 1))).toNat
  rw [hw, toInt_eq_toNat_of_lt (by omega), Int.toNat_natCast]
  omega

end Cert.RefGather

end
-- ==== Proof.KernelIdeal.R0W.lean ====
import proofs.«418227_j23983097381305_3_alg».proof.Proof.KernelIdeal.R0
import proofs.«418227_j23983097381305_3_alg».proof.Proof.KernelIdeal.R0C
import proofs.«418227_j23983097381305_3_alg».proof.Proof.RefStages
import proofs.«418227_j23983097381305_3_alg».proof.Proof.RefGather
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))
variable (a : (pcfg0 (F := Ideal)).Adm) (hw : k0_chk1 (tword0 (F := Ideal) (a.1 0)))

theorem idx_facts0_4 (t : Fin (cfg0 a).N) : ((cfg0 a).win 4).index t (0 : Fin 2) = 0 ∧ ((cfg0 a).win 4).index t (1 : Fin 2) = 0 := by
  obtain rfl := fin_N0 t
  exact ⟨rfl, rfl⟩

theorem emb0_4 (t : Fin (cfg0 a).N) (j : S1x2048.Idx) : (((cfg0 a).win 4).blk t).view.emb j = j := by
  obtain ⟨e0, e1⟩ := idx_facts0_4 a t
  refine funext fun b => Fin.ext ?_
  match b with
  | ⟨0, _⟩ => show ((cfg0 a).win 4).index t (0 : Fin 2) * 1 + 1 * (j 0).val = (j 0).val; rw [e0]; omega
  | ⟨1, _⟩ => show ((cfg0 a).win 4).index t (1 : Fin 2) * 2048 + 1 * (j 1).val = (j 1).val; rw [e1]; omega

theorem flushed0_4_eq (c : Dev nD) (t : Fin (cfg0 a).N) :
    (dat0 (F := Ideal) V a hw c).flushed 4 t = (((cfg0 a).win 4).blk t).view.read (Elt Ideal) (erow0 V a hw c) := by
  show ((cfg0 a).win 4).cut (grid0.coords t) ((dat0 (F := Ideal) V a hw c).after 4 t) = _
  rw [after0_4]
  refine funext fun (j : S1x2048.Idx) => ?_
  show erow0 V a hw c j = erow0 V a hw c ((((cfg0 a).win 4).blk t).view.emb j)
  rw [emb0_4]

theorem covered0_4 (i : S1x2048.Idx) : ∃ t : Fin (cfg0 a).N, ((cfg0 a).win 4).flush t = true ∧ i ∈ (((cfg0 a).win 4).blk t).view.set := by
  refine ⟨t0_0, rfl, ?_⟩
  have h := View.emb_mem_set (((cfg0 a).win 4).blk t0_0).view i
  rwa [emb0_4] at h

theorem final0_4 (c : Dev nD) : (dat0 (F := Ideal) V a hw c).arrAt 4 (cfg0 a).N = erow0 V a hw c :=
  (dat0 (F := Ideal) V a hw c).arrAt_eq_of_cover 4 _ (fun t _ => flushed0_4_eq V a hw c t) (covered0_4 a)

theorem stage0_emb (c : Dev nD) (x0 : (⟨Cert.ReferenceIdeal.S1, .i32⟩ : BufTy).Contents (Elt Ideal))
    (x3 : (⟨Cert.ReferenceIdeal.S50257x2048, .f32⟩ : BufTy).Contents (Elt Ideal))
    (hx0 : a.1 0 = x0) (h3 : V c main_arg3 = x3) (hlt : (x0 (ix1 (0 : Fin 1))).toNat < 50257) :
    (dat0 (F := Ideal) V a hw c).arrAt 4 (cfg0 a).N = Cert.ReferenceIdeal.Read.val_main_v6 (F := Ideal) x0 x3 := by
  refine (final0_4 V a hw c).trans ?_
  funext i
  obtain ⟨p, k, rfl⟩ : ∃ (p : Fin 1) (k : Fin 2048), i = ix2 p k := ⟨i 0, i 1, eq_ix2 i⟩
  obtain rfl : p = 0 := Subsingleton.elim _ _
  rw [Cert.RefGather.ref_row x0 x3 hlt k]
  have hword : (tword0 (F := Ideal) (a.1 0)).toNat = (x0 (ix1 (0 : Fin 1))).toNat := by
    rw [tword0_ix, hx0]
  refine (emb_row0_apply (V c main_arg3) (tword0 (a.1 0)) hw (ix2 (0 : Fin 1) k)
    (ix2 (⟨(x0 (ix1 (0 : Fin 1))).toNat, hlt⟩ : Fin 50257) k) hword.symm rfl).trans ?_
  subst h3
  rfl

end Cert.KernelIdeal.Hand

end
-- ==== Proof.KernelIdeal.R0V.lean ====
import proofs.«418227_j23983097381305_3_alg».proof.Proof.KernelIdeal.R0
import proofs.«418227_j23983097381305_3_alg».proof.Proof.KernelIdeal.R0W
import proofs.«418227_j23983097381305_3_alg».proof.Proof.RefStages
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe
open Idealize.SL.Sem
open Idealize.ShloMosaic.Pipeline (Dat Cfg Window BodyObligation cellOf)
open Idealize.ShloMosaic.ValueIdx

def smMax (f : Fin 64 → EReal) : EReal := (Finset.univ : Finset (Fin 64)).fold max (Ideal.ofBits .f32 0xFF800000#32) f
def smExp (f : Fin 64 → EReal) (j : Fin 64) : EReal := Ideal.exp (f j - smMax f)
def sm (f : Fin 64 → EReal) (j : Fin 64) : EReal := Ideal.div (smExp f j) (∑ k : Fin 64, smExp f k)

-- Two one-row arrays that agree along the row are equal: the row coordinate has one value.
theorem ext_row {n : ℕ} {α : Type} {f g : (⟨2, ![1, n]⟩ : Shape).Idx → α}
    (h : ∀ j : Fin n, f (ix2 (0 : Fin 1) j) = g (ix2 (0 : Fin 1) j)) : f = g :=
  funext fun i => by
    obtain ⟨p, j, rfl⟩ : ∃ (p : Fin 1) (j : Fin n), i = ix2 p j := ⟨i 0, i 1, eq_ix2 i⟩
    obtain rfl : p = 0 := Subsingleton.elim _ _
    exact h j

theorem lift_1x64 (h : S1x64.Reduces [1] S1) (i : S1.Idx) : h.lift i = fun k : Fin 64 => ix2 (0 : Fin 1) k :=
  funext fun k => (eq_ix2 _).trans (congrArg (ix2 · k) (Subsingleton.elim _ _))

variable {F : FTy → Type} [FloatOps F]

def k0_exps (v24 : FVec F S1x64 .f32) : FVec F S1x64 .f32 :=
  exp (subf v24 (broadcastTo S1x64 (shapeCast S1x1 (multiReduction .maximumf [1] S1 v24 0xFF800000#32 reduces_S1x64_S1 (.inl rfl) rfl)
    shapeCasts_S1_S1x1) broadcasts_S1x1_S1x64))

def k0_soft (v24 : FVec F S1x64 .f32) : FVec F S1x64 .f32 :=
  divf (k0_exps v24) (broadcastTo S1x64 (shapeCast S1x1 (multiReduction .add [1] S1 (k0_exps v24) 0x00000000#32 reduces_S1x64_S1 (.inl rfl) rfl)
    shapeCasts_S1_S1x1) broadcasts_S1x1_S1x64)

theorem bcast_entry {α : Type} (v : S1.Idx → α) (j : Fin 64) :
    broadcastTo S1x64 (shapeCast S1x1 v shapeCasts_S1_S1x1) broadcasts_S1x1_S1x64 (ix2 (0 : Fin 1) j) = v (ix1 (0 : Fin 1)) :=
  (broadcastTo_apply _ broadcasts_S1x1_S1x64 _ (ix2 (0 : Fin 1) (0 : Fin 1)) fun a => by
    match a with
    | ⟨0, _⟩ => rfl
    | ⟨1, _⟩ => rfl).trans (shapeCast_a_1a_apply v shapeCasts_S1_S1x1 0 0)

theorem k0_max_apply (l : FVec Ideal S1x64 .f32) (i : S1.Idx) :
    multiReduction .maximumf [1] S1 l 0xFF800000#32 reduces_S1x64_S1 (.inl rfl) rfl i = smMax (fun j => l (ix2 (0 : Fin 1) j)) :=
  (Ideal.multiReduction_maximumf_single l _ reduces_S1x64_S1 (.inl rfl) rfl i).trans (by rw [lift_1x64] <;> rfl)

theorem k0_sum_apply (p : FVec Ideal S1x64 .f32) (i : S1.Idx) :
    multiReduction .add [1] S1 p 0x00000000#32 reduces_S1x64_S1 (.inl rfl) rfl i = ∑ k : Fin 64, p (ix2 (0 : Fin 1) k) :=
  (Ideal.multiReduction_add_single p _ reduces_S1x64_S1 (.inl rfl) rfl i).trans (by rw [lift_1x64] <;> rfl)

theorem k0_exps_apply (l : FVec Ideal S1x64 .f32) (j : Fin 64) : k0_exps l (ix2 (0 : Fin 1) j) = smExp (fun j => l (ix2 (0 : Fin 1) j)) j :=
  congrArg (fun m => Ideal.exp (l (ix2 (0 : Fin 1) j) - m)) ((bcast_entry _ j).trans (k0_max_apply l _))

theorem k0_soft_apply (l : FVec Ideal S1x64 .f32) (j : Fin 64) : k0_soft l (ix2 (0 : Fin 1) j) = sm (fun j => l (ix2 (0 : Fin 1) j)) j :=
  congrArg₂ Ideal.div (k0_exps_apply l j)
    ((bcast_entry _ j).trans ((k0_sum_apply _ _).trans (Finset.sum_congr rfl fun k _ => k0_exps_apply l k)))

def k0_logits (v9 : Vec F S1x2048 .f32) (v12 : Vec F S1x2048 .f32) (v15 : Vec F S64x4096 .f32) (v22 : Vec F S1x64 .f32) : FVec F S1x64 .f32 :=
  have v10 : FVec F S1x2048 .f32 := shapeCast S1x2048 v9 shapeCasts_S1x2048_S1x2048
  have v11 : FVec F S1x2048 .bf16 := truncf .bf16 v10 bitsLt_bf16_f32
  have v13 : FVec F S1x2048 .f32 := shapeCast S1x2048 v12 shapeCasts_S1x2048_S1x2048
  have v14 : FVec F S1x2048 .bf16 := truncf .bf16 v13 bitsLt_bf16_f32
  have v16 : FVec F S64x4096 .bf16 := truncf .bf16 v15 bitsLt_bf16_f32
  have v17 : FVec F S64x2048 .bf16 := extractStridedSlice S64x2048 ![0, 0] v16 slices_S64x4096_o0_0_S64x2048
  have v18 : FVec F S64x2048 .bf16 := extractStridedSlice S64x2048 ![0, 2048] v16 slices_S64x4096_o0_2048_S64x2048
  have cst : FVec F S1x64 .f32 := constant S1x64 .f32 0x00000000#32
  have v19 : FVec F S1x64 .f32 := matmul dot_S1x2048_S64x2048_S1x64_1_1_0_0_n_n none v11 v17 cst
  have cst_11 : FVec F S1x64 .f32 := constant S1x64 .f32 0x00000000#32
  have v20 : FVec F S1x64 .f32 := matmul dot_S1x2048_S64x2048_S1x64_1_1_0_0_n_n none v14 v18 cst_11
  have v21 : FVec F S1x64 .f32 := addf v19 v20
  have v23 : FVec F S1x64 .f32 := shapeCast S1x64 v22 shapeCasts_S1x64_S1x64
  addf v21 v23

theorem k0_pay2_eq (v9 : Vec F S1x2048 .f32) (v12 : Vec F S1x2048 .f32) (v15 : Vec F S64x4096 .f32) (v22 : Vec F S1x64 .f32) :
    k0_pay2 v9 v12 v15 v22 = k0_soft (k0_logits v9 v12 v15 v22) := rfl

-- A product contracting one axis of extent n into the zero accumulator, at an output index: the sum over that axis of the operands' products.
theorem dot1_apply {sl sr so : Shape} {φ₁ φ₂ : FTy} (D : DotDims sl sr so) (n : ℕ) (hr : D.contr.rank = 1)
    (hs : D.contr.size ⟨0, by omega⟩ = n) (a : FVec Ideal sl φ₁) (b : FVec Ideal sr φ₂) (i : so.Idx)
    (li : Fin n → sl.Idx) (ri : Fin n → sr.Idx)
    (hl : ∀ k, D.lhsIdx i ((contrEquiv1 D n hr hs).symm k) = li k)
    (hri : ∀ k, D.rhsIdx i ((contrEquiv1 D n hr hs).symm k) = ri k) :
    matmul D none a b (constant so .f32 0x00000000#32) i = ∑ k : Fin n, a (li k) * b (ri k) := by
  refine (Ideal.matmul_constant_zero_apply D none a b i).trans ?_
  rw [← Equiv.sum_comp (contrEquiv1 D n hr hs).symm]
  exact Finset.sum_congr rfl fun k _ => by rw [hl, hri]

abbrev colL (k : Fin 2048) : Fin 4096 := ⟨k.val, by omega⟩
abbrev colR (k : Fin 2048) : Fin 4096 := ⟨2048 + k.val, by omega⟩

def lgK (e h : Fin 2048 → EReal) (w : Fin 64 → Fin 4096 → EReal) (b : Fin 64 → EReal) (j : Fin 64) : EReal :=
  (∑ k : Fin 2048, e k * w j (colL k)) + (∑ k : Fin 2048, h k * w j (colR k)) + b j

-- A row against columns o … o + 2047 of each of the 64 rows of w.
theorem half_apply (o : ℕ) (v : Vec Ideal S1x2048 .f32) (w : FVec Ideal S64x4096 .bf16) (h : S64x4096.Slices ![0, o] S64x2048) (j : Fin 64)
    (col : Fin 2048 → Fin 4096) (hc : ∀ k, (col k).val = o + k.val) :
    matmul dot_S1x2048_S64x2048_S1x64_1_1_0_0_n_n none (truncf .bf16 (shapeCast S1x2048 v shapeCasts_S1x2048_S1x2048) bitsLt_bf16_f32)
        (extractStridedSlice S64x2048 ![0, o] w h) (constant S1x64 .f32 0x00000000#32) (ix2 (0 : Fin 1) j)
      = ∑ k : Fin 2048, v (ix2 (0 : Fin 1) k) * w (ix2 j (col k)) :=
  (dot1_apply _ 2048 rfl rfl _ _ _ (fun k => ix2 (0 : Fin 1) k) (fun k => ix2 j k) (fun k => Shape.idx_ext₂ rfl rfl)
    (fun k => Shape.idx_ext₂ rfl rfl)).trans (Finset.sum_congr rfl fun k _ =>
      congrArg₂ (· * ·) (congrFun (shapeCast_self v _) _) (slice2_axis1_apply o w h j k (col k) (hc k)))

theorem k0_logits_apply (v9 : Vec Ideal S1x2048 .f32) (v12 : Vec Ideal S1x2048 .f32) (v15 : Vec Ideal S64x4096 .f32) (v22 : Vec Ideal S1x64 .f32)
    (j : Fin 64) :
    k0_logits v9 v12 v15 v22 (ix2 (0 : Fin 1) j)
      = lgK (fun k => v9 (ix2 (0 : Fin 1) k)) (fun k => v12 (ix2 (0 : Fin 1) k)) (fun j k => v15 (ix2 j k)) (fun j => v22 (ix2 (0 : Fin 1) j)) j :=
  congrArg₂ (· + ·) (congrArg₂ (· + ·) (half_apply 0 v9 _ _ j colL fun k => (Nat.zero_add _).symm) (half_apply 2048 v12 _ _ j colR fun _ => rfl))
    (congrFun (shapeCast_self v22 _) _)

theorem k0_pay1_apply (v33 : FVec Ideal S1x64 .f32) (v36 : Vec Ideal S64x2048 .f32) (k : Fin 2048) :
    k0_pay1 v33 v36 (ix2 (0 : Fin 1) k) = ∑ j : Fin 64, v33 (ix2 (0 : Fin 1) j) * v36 (ix2 j k) :=
  dot1_apply dot_S1x64_S64x2048_S1x2048_1_0_0_1_n_n 64 rfl rfl _ _ _ _ _ (fun j => Shape.idx_ext₂ rfl rfl) (fun j => Shape.idx_ext₂ rfl rfl)

section Ref
open Cert.ReferenceIdeal.Read

variable (V : (c : Dev nD) → (b : Ref sig .tc) → Buf (Elt Ideal) ((c : Thread nD τ).loc b))
variable (a : (pcfg0 (F := Ideal)).Adm) (hw : k0_chk1 (tword0 (F := Ideal) (a.1 0))) (c : Dev nD)
variable (x0 : (⟨Cert.ReferenceIdeal.S1, .i32⟩ : BufTy).Contents (Elt Ideal)) (x1 : (⟨Cert.ReferenceIdeal.S1x1x2048, .f32⟩ : BufTy).Contents (Elt Ideal))
  (x2 : (⟨Cert.ReferenceIdeal.S64x2048, .f32⟩ : BufTy).Contents (Elt Ideal)) (x3 : (⟨Cert.ReferenceIdeal.S50257x2048, .f32⟩ : BufTy).Contents (Elt Ideal))
  (x4 : (⟨Cert.ReferenceIdeal.S64x4096, .f32⟩ : BufTy).Contents (Elt Ideal)) (x5 : (⟨Cert.ReferenceIdeal.S64, .f32⟩ : BufTy).Contents (Elt Ideal))

theorem sum_halves (f : Fin 4096 → EReal) : ∑ k : Fin 4096, f k = (∑ k : Fin 2048, f (colL k)) + ∑ k : Fin 2048, f (colR k) :=
  Fin.sum_univ_add (a := 2048) (b := 2048) f

theorem ref_cat_left (k : Fin 2048) :
    val_main_v8 (F := Ideal) x0 x1 x3 (ix2 (0 : Fin 1) (colL k)) = val_main_v6 (F := Ideal) x0 x3 (ix2 (0 : Fin 1) k) := by
  unfold val_main_v8
  exact concatenate_pair_apply_left (t := Cert.ReferenceIdeal.S1x4096) (s₁ := Cert.ReferenceIdeal.S1x2048) (s₂ := Cert.ReferenceIdeal.S1x2048) (1 : Fin 2) _ _ _
    (ix2 (0 : Fin 1) (colL k)) rfl (ix2 (0 : Fin 1) k) fun b => by
      match b with
      | ⟨0, _⟩ => rfl
      | ⟨1, _⟩ => rfl

theorem ref_cat_right (k : Fin 2048) :
    val_main_v8 (F := Ideal) x0 x1 x3 (ix2 (0 : Fin 1) (colR k)) = val_main_v7 (F := Ideal) x1 (ix2 (0 : Fin 1) k) := by
  unfold val_main_v8
  exact concatenate_pair_apply_right (t := Cert.ReferenceIdeal.S1x4096) (s₁ := Cert.ReferenceIdeal.S1x2048) (s₂ := Cert.ReferenceIdeal.S1x2048) (1 : Fin 2) _ _ _
    (ix2 (0 : Fin 1) (colR k)) rfl rfl (ix2 (0 : Fin 1) k) (fun b hb => by
      match b with
      | ⟨0, _⟩ => rfl
      | ⟨1, _⟩ => exact absurd rfl hb) (Nat.add_comm _ _)

theorem ref_logits_apply (j : Fin 64) :
    val_main_v12 (F := Ideal) x0 x1 x3 x4 x5 (ix2 (0 : Fin 1) j)
      = lgK (fun k => val_main_v6 (F := Ideal) x0 x3 (ix2 (0 : Fin 1) k)) (fun k => val_main_v7 (F := Ideal) x1 (ix2 (0 : Fin 1) k))
          (fun j k => x4 (ix2 j k)) (fun j => x5 (ix1 j)) j := by
  rw [val_main_v12_apply, val_main_v10_apply, val_main_v11_apply]
  unfold lgK
  show _ + _ = _
  refine congrArg₂ (· + ·) ?_ (congrArg x5 (eq_ix1 _))
  rw [sum_halves]
  have hl : ∀ k : Fin 4096, lidx_main_v10 (ix2 (0 : Fin 1) j) k = ix2 (0 : Fin 1) k := fun k => eq_ix2 _
  have hr : ∀ k : Fin 4096, val_main_v9 (F := Ideal) x4 (ridx_main_v10 (ix2 (0 : Fin 1) j) k) = x4 (ix2 j k) := fun k =>
    (val_main_v9_apply x4 _).trans (congrArg x4 (eq_ix2 _))
  exact congrArg₂ (· + ·) (Finset.sum_congr rfl fun k _ => by rw [hl, hr, ref_cat_left])
    (Finset.sum_congr rfl fun k _ => by rw [hl, hr, ref_cat_right])

-- The reference reduces by maximum from −∞ and then takes the maximum with −∞ again: the fold already lies above its start.
theorem ref_max_apply (i : Cert.ReferenceIdeal.S1.Idx) :
    val_main_v15 (F := Ideal) x0 x1 x3 x4 x5 i = smMax (fun j => val_main_v12 (F := Ideal) x0 x1 x3 x4 x5 (ix2 (0 : Fin 1) j)) := by
  rw [val_main_v15_apply]
  unfold val_main_v13
  generalize val_main_v12 (F := Ideal) x0 x1 x3 x4 x5 = y
  have e : Host.reduce (FloatOps.maximumf (F := Ideal) (φ := .f32)) y (val_main_cst (F := Ideal)) Cert.ReferenceIdeal.Gen.reducesTo_S1x64_S1_d1
      Cert.ReferenceIdeal.Gen.h_S_ i = smMax (fun j => y (ix2 (0 : Fin 1) j)) :=
    (Host.reduce_eq_fold_single (FloatOps.maximumf (F := Ideal) (φ := .f32)) y _ Cert.ReferenceIdeal.Gen.reducesTo_S1x64_S1_d1 (by decide)
      Cert.ReferenceIdeal.Gen.h_S_ i).trans (by rw [lift_1x64] <;> rfl)
  exact (congrArg (max (Ideal.ofBits .f32 0xFF800000#32)) e).trans (max_eq_right ((Finset.le_fold_max _).mpr (Or.inl le_rfl)))

theorem ref_exp_apply (j : Fin 64) :
    val_main_v19 (F := Ideal) x0 x1 x3 x4 x5 (ix2 (0 : Fin 1) j)
      = smExp (fun j => val_main_v12 (F := Ideal) x0 x1 x3 x4 x5 (ix2 (0 : Fin 1) j)) j := by
  rw [val_main_v19_apply, val_main_v18_apply, val_main_v17_apply, val_main_v16_apply, ref_max_apply]
  rfl

theorem ref_soft_apply (j : Fin 64) :
    val_main_v23 (F := Ideal) x0 x1 x3 x4 x5 (ix2 (0 : Fin 1) j)
      = sm (fun j => val_main_v12 (F := Ideal) x0 x1 x3 x4 x5 (ix2 (0 : Fin 1) j)) j := by
  rw [val_main_v23_apply, val_main_v22_apply, val_main_v21_apply, val_main_v20_apply, ref_exp_apply]
  unfold sm
  show Ideal.div _ (Ideal.ofBits .f32 0x00000000#32 + _) = _
  rw [Ideal.ofBits_zero_f32, zero_add]
  exact congrArg (Ideal.div _) (Finset.sum_congr rfl fun k _ =>
    (congrArg (val_main_v19 (F := Ideal) x0 x1 x3 x4 x5) (eq_ix2 _)).trans (ref_exp_apply x0 x1 x3 x4 x5 k))

theorem ref_app_apply (k : Fin 2048) :
    val_main_v24 (F := Ideal) x0 x1 x2 x3 x4 x5 (ix2 (0 : Fin 1) k)
      = ∑ j : Fin 64, val_main_v23 (F := Ideal) x0 x1 x3 x4 x5 (ix2 (0 : Fin 1) j) * x2 (ix2 j k) := by
  rw [val_main_v24_apply]
  exact Finset.sum_congr rfl fun j _ =>
    congrArg₂ (· * ·) (congrArg (val_main_v23 (F := Ideal) x0 x1 x3 x4 x5) (eq_ix2 _)) (congrArg x2 (eq_ix2 _))

theorem pay2_eq_ref (v9 : Vec Ideal S1x2048 .f32) (v12 : Vec Ideal S1x2048 .f32) (v15 : Vec Ideal S64x4096 .f32) (v22 : Vec Ideal S1x64 .f32)
    (h9 : v9 = val_main_v6 (F := Ideal) x0 x3) (h12 : v12 = val_main_v7 (F := Ideal) x1) (h15 : v15 = x4)
    (h22 : ∀ j : Fin 64, v22 (ix2 (0 : Fin 1) j) = x5 (ix1 j)) :
    k0_pay2 v9 v12 v15 v22 = val_main_v23 (F := Ideal) x0 x1 x3 x4 x5 := by
  subst h9 h12 h15
  refine ext_row fun j => ?_
  rw [k0_pay2_eq, k0_soft_apply, ref_soft_apply]
  refine congrArg (fun f => sm f j) (funext fun j' => ?_)
  rw [k0_logits_apply, ref_logits_apply]
  exact congrArg (fun b => lgK _ _ _ b j') (funext h22)

theorem pay1_eq_ref (v33 : FVec Ideal S1x64 .f32) (v36 : Vec Ideal S64x2048 .f32)
    (h33 : v33 = val_main_v23 (F := Ideal) x0 x1 x3 x4 x5) (h36 : v36 = x2) :
    k0_pay1 v33 v36 = val_main_v24 (F := Ideal) x0 x1 x2 x3 x4 x5 := by
  subst h33 h36
  exact ext_row fun k => by rw [k0_pay1_apply, ref_app_apply]

theorem emb0_0 (t : Fin (cfg0 a).N) (j : S1x2048.Idx) : (((cfg0 a).win 0).blk t).view.emb j = j := by
  obtain rfl := fin_N0 t
  exact Shape.idx_ext₂ (((cfg0 a).win 0).rect_emb_val_of_index_zero t0_0 (0 : Fin 2) rfl j) (((cfg0 a).win 0).rect_emb_val_of_index_zero t0_0 (1 : Fin 2) rfl j)
theorem emb0_1 (t : Fin (cfg0 a).N) (j : S64x4096.Idx) : (((cfg0 a).win 1).blk t).view.emb j = j := by
  obtain rfl := fin_N0 t
  exact Shape.idx_ext₂ (((cfg0 a).win 1).rect_emb_val_of_index_zero t0_0 (0 : Fin 2) rfl j) (((cfg0 a).win 1).rect_emb_val_of_index_zero t0_0 (1 : Fin 2) rfl j)
theorem emb0_2 (t : Fin (cfg0 a).N) (j : S1x64.Idx) : (((cfg0 a).win 2).blk t).view.emb j = j := by
  obtain rfl := fin_N0 t
  exact Shape.idx_ext₂ (((cfg0 a).win 2).rect_emb_val_of_index_zero t0_0 (0 : Fin 2) rfl j) (((cfg0 a).win 2).rect_emb_val_of_index_zero t0_0 (1 : Fin 2) rfl j)
theorem emb0_3 (t : Fin (cfg0 a).N) (j : S64x2048.Idx) : (((cfg0 a).win 3).blk t).view.emb j = j := by
  obtain rfl := fin_N0 t
  exact Shape.idx_ext₂ (((cfg0 a).win 3).rect_emb_val_of_index_zero t0_0 (0 : Fin 2) rfl j) (((cfg0 a).win 3).rect_emb_val_of_index_zero t0_0 (1 : Fin 2) rfl j)
theorem emb0_5 (t : Fin (cfg0 a).N) (j : S1x64.Idx) : (((cfg0 a).win 5).blk t).view.emb j = j := by
  obtain rfl := fin_N0 t
  exact Shape.idx_ext₂ (((cfg0 a).win 5).rect_emb_val_of_index_zero t0_0 (0 : Fin 2) rfl j) (((cfg0 a).win 5).rect_emb_val_of_index_zero t0_0 (1 : Fin 2) rfl j)
theorem emb0_6 (t : Fin (cfg0 a).N) (j : S1x2048.Idx) : (((cfg0 a).win 6).blk t).view.emb j = j := by
  obtain rfl := fin_N0 t
  exact Shape.idx_ext₂ (((cfg0 a).win 6).rect_emb_val_of_index_zero t0_0 (0 : Fin 2) rfl j) (((cfg0 a).win 6).rect_emb_val_of_index_zero t0_0 (1 : Fin 2) rfl j)

theorem iblk0_0_eq (t : Fin (cfg0 a).N) : iblk0 V a c 0 t = V c main_v0 :=
  funext fun j => congrArg (V c main_v0) (emb0_0 a t j)
theorem iblk0_1_eq (t : Fin (cfg0 a).N) : iblk0 V a c 1 t = V c main_arg4 :=
  funext fun j => congrArg (V c main_arg4) (emb0_1 a t j)
theorem iblk0_2_eq (t : Fin (cfg0 a).N) : iblk0 V a c 2 t = V c main_v1 :=
  funext fun j => congrArg (V c main_v1) (emb0_2 a t j)
theorem iblk0_3_eq (t : Fin (cfg0 a).N) : iblk0 V a c 3 t = V c main_arg2 :=
  funext fun j => congrArg (V c main_arg2) (emb0_3 a t j)

abbrev aw0 : Vec Ideal S1x64 .f32 := k0_pay2 (erow0 V a hw c) (V c main_v0) (V c main_arg4) (V c main_v1)

theorem after0_5_arr (t : Fin (cfg0 a).N) : (dat0 (F := Ideal) V a hw c).after 5 t = aw0 V a hw c := by
  rw [after0_5_eq, after0_4, iblk0_0_eq, iblk0_1_eq, iblk0_2_eq]
theorem after0_6_arr (t : Fin (cfg0 a).N) :
    (dat0 (F := Ideal) V a hw c).after 6 t = k0_pay1 (aw0 V a hw c) (V c main_arg2) := by
  rw [after0_6_eq, after0_5_arr, iblk0_3_eq]

theorem final0_5 : (dat0 (F := Ideal) V a hw c).arrAt 5 (cfg0 a).N = aw0 V a hw c :=
  (dat0 (F := Ideal) V a hw c).arrAt_eq_of_cover 5 _ (fun t _ => funext fun (j : S1x64.Idx) => by
      show (dat0 (F := Ideal) V a hw c).after 5 t j = aw0 V a hw c ((((cfg0 a).win 5).blk t).view.emb j)
      rw [after0_5_arr, emb0_5])
    fun (i : S1x64.Idx) => ⟨t0_0, rfl, by have h := View.emb_mem_set (((cfg0 a).win 5).blk t0_0).view i; rwa [emb0_5] at h⟩
theorem final0_6 : (dat0 (F := Ideal) V a hw c).arrAt 6 (cfg0 a).N = k0_pay1 (aw0 V a hw c) (V c main_arg2) :=
  (dat0 (F := Ideal) V a hw c).arrAt_eq_of_cover 6 _ (fun t _ => funext fun (j : S1x2048.Idx) => by
      show (dat0 (F := Ideal) V a hw c).after 6 t j = k0_pay1 (aw0 V a hw c) (V c main_arg2) ((((cfg0 a).win 6).blk t).view.emb j)
      rw [after0_6_arr, emb0_6])
    fun (i : S1x2048.Idx) => ⟨t0_0, rfl, by have h := View.emb_mem_set (((cfg0 a).win 6).blk t0_0).view i; rwa [emb0_6] at h⟩

variable (hx0 : a.1 0 = x0) (h3 : V c main_arg3 = x3) (hlt : (x0 (ix1 (0 : Fin 1))).toNat < 50257)
  (h0 : V c main_v0 = val_main_v7 (F := Ideal) x1) (h4 : V c main_arg4 = x4)
  (h1 : ∀ j : Fin 64, V c main_v1 (ix2 (0 : Fin 1) j) = x5 (ix1 j))
include hx0 h3 hlt h0 h4 h1

theorem aw0_eq_ref : aw0 V a hw c = val_main_v23 (F := Ideal) x0 x1 x3 x4 x5 :=
  pay2_eq_ref x0 x1 x3 x4 x5 _ _ _ _ ((final0_4 V a hw c).symm.trans (stage0_emb V a hw c x0 x3 hx0 h3 hlt)) h0 h4 h1

theorem stage0_aw : (dat0 (F := Ideal) V a hw c).arrAt 5 (cfg0 a).N = val_main_v23 (F := Ideal) x0 x1 x3 x4 x5 :=
  (final0_5 V a hw c).trans (aw0_eq_ref V a hw c x0 x1 x3 x4 x5 hx0 h3 hlt h0 h4 h1)

theorem stage0_app (h2 : V c main_arg2 = x2) :
    (dat0 (F := Ideal) V a hw c).arrAt 6 (cfg0 a).N = val_main_v24 (F := Ideal) x0 x1 x2 x3 x4 x5 :=
  (final0_6 V a hw c).trans (pay1_eq_ref x0 x1 x2 x3 x4 x5 _ _ (aw0_eq_ref V a hw c x0 x1 x3 x4 x5 hx0 h3 hlt h0 h4 h1) h2)

end Ref

end Cert.KernelIdeal.Hand

end
-- ==== Proof.KernelIdeal.R1V.lean ====
import proofs.«418227_j23983097381305_3_alg».proof.Proof.KernelIdeal.R1
import proofs.«418227_j23983097381305_3_alg».proof.Proof.RefStages
import proofs.«418227_j23983097381305_3_alg».proof.Proof.LibRowDot

noncomputable section

namespace Cert.KernelIdeal.Hand

open Cert.KernelIdeal Cert.KernelIdeal.Gen
open Idealize.ShloMosaic Idealize.ShloMosaic.TcCoe Idealize.ShloMosaic.ValueIdx
open Cert.ReferenceIdeal.Read
open scoped BigOperators

/-- The casts around the product are the identity at the extended reals, so the payload is the row product plus the bias entry. -/
theorem k1_pay1_apply (x0 : Vec Ideal S1x4096 .f32) (x1 : Vec Ideal S512x4096 .f32) (x2 : Vec Ideal S1x512 .f32) (q : Fin 512) :
    k1_pay1 x0 x1 x2 (ix2 (0 : Fin 1) q) = (∑ k : Fin 4096, x0 (ix2 (0 : Fin 1) k) * x1 (ix2 q k)) + x2 (ix2 (0 : Fin 1) q) := by
  unfold k1_pay1
  rw [addf_apply, shapeCast_self, shapeCast_self]
  exact congrArg (· + _) (matmulT_apply none _ _ 0 q)

variable (V : (c : Dev nD) → (b : Ref sig .tc) → Buf (Elt Ideal) ((c : Thread nD τ).loc b))

theorem idx_facts1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- Block t of x · Wᵀ + b is the row x against rows 512·t … of W plus columns 512·t … of b: point t's three operands. -/
theorem flushed1_3_eq (c : Dev nD) (t : Fin cfg1.N) :
    (dat1 (F := Ideal) V c).flushed 3 t = ((cfg1.win 3).blk t).view.read (Elt Ideal) (rowLin (V c main_v3) (V c main_arg6) (V c main_v4)) := by
  show (cfg1.win 3).cut (grid1.coords t) ((dat1 (F := Ideal) V c).after 3 t) = _
  rw [after1_3]
  unfold out1_3
  rw [View.canon_unit_zero off00]
  simp only [View.ld_unit_zero (S := S1x4096) off00, View.ld_unit_zero (S := S512x4096) off00, View.ld_unit_zero (S := S1x512) off00]
  obtain ⟨e00, e01, e10, e11, e20, e21, e30, e31⟩ := idx_facts1 t
  funext j
  obtain ⟨p, q, rfl⟩ : ∃ (p : Fin 1) (q : Fin 512), j = ix2 p q := ⟨j 0, j 1, eq_ix2 j⟩
  obtain rfl : p = 0 := Subsingleton.elim _ _
  refine (k1_pay1_apply _ _ _ q).trans (congrArg₂ (· + ·) (Finset.sum_congr rfl fun k _ => congrArg₂ (· * ·) ?_ ?_) ?_)
  · exact congrArg (V c main_v3) (idx2_ext (by show win1_0.index t 0 * 1 + 1 * 0 = 0; omega) (by show win1_0.index t 1 * 4096 + 1 * k.val = k.val; omega))
  · exact congrArg (V c main_arg6) (idx2_ext (by show win1_1.index t 0 * 512 + 1 * q.val = win1_3.index t 1 * 512 + 1 * q.val; omega) (by show win1_1.index t 1 * 4096 + 1 * k.val = k.val; omega))
  · exact congrArg (V c main_v4) (idx2_ext (by show win1_2.index t 0 * 1 + 1 * 0 = win1_3.index t 0 * 1 + 1 * 0; omega) (by show win1_2.index t 1 * 512 + 1 * q.val = win1_3.index t 1 * 512 + 1 * q.val; omega))

theorem covered1_3 (i : S1x2048.Idx) : ∃ t : Fin cfg1.N, (cfg1.win 3).flush t = true ∧ i ∈ ((cfg1.win 3).blk t).view.set := by
  have hi1 : (i 1).val < 2048 := (i 1).isLt
  obtain ⟨t, ht⟩ : ∃ t : Fin cfg1.N, t.val = (i 1).val / 512 := ⟨⟨(i 1).val / 512, lt_of_lt_of_eq (by omega) N_1.symm⟩, rfl⟩
  obtain ⟨-, -, -, -, -, -, e30, e31⟩ := idx_facts1 t
  refine ⟨t, flush1_3 t, ?_⟩
  show i ∈ ((View.whole main_v5).slice (win1_3.rect t)).set
  rw [View.set_slice_whole, Rect.mem_set_unit]
  exact row_cover 512 i (win1_3.index t) (win1_3.xsize (grid1.coords t)) e30 (e31.trans ht) rfl (by show (i 1).val < (i 1).val / 512 * 512 + 512; omega)

theorem stage1 (c : Dev nD) (x0 : (⟨Cert.ReferenceIdeal.S1, .i32⟩ : BufTy).Contents (Elt Ideal)) (x1 : (⟨Cert.ReferenceIdeal.S1x1x2048, .f32⟩ : BufTy).Contents (Elt Ideal)) (x2 : (⟨Cert.ReferenceIdeal.S64x2048, .f32⟩ : BufTy).Contents (Elt Ideal)) (x3 : (⟨Cert.ReferenceIdeal.S50257x2048, .f32⟩ : BufTy).Contents (Elt Ideal)) (x4 : (⟨Cert.ReferenceIdeal.S64x4096, .f32⟩ : BufTy).Contents (Elt Ideal)) (x5 : (⟨Cert.ReferenceIdeal.S64, .f32⟩ : BufTy).Contents (Elt Ideal)) (x6 : (⟨Cert.ReferenceIdeal.S2048x4096, .f32⟩ : BufTy).Contents (Elt Ideal)) (x7 : (⟨Cert.ReferenceIdeal.S2048, .f32⟩ : BufTy).Contents (Elt Ideal))
    (h3 : V c main_v3 = Cert.ReferenceIdeal.Read.val_main_v25 (F := Ideal) x0 x1 x2 x3 x4 x5)
    (h6 : V c main_arg6 = x6) (h4 : ∀ j : Fin 2048, V c main_v4 (ix2 (0 : Fin 1) j) = x7 (ix1 j)) :
    (dat1 (F := Ideal) V c).arrAt 3 cfg1.N = Cert.ReferenceIdeal.Read.val_main_v29 (F := Ideal) x0 x1 x2 x3 x4 x5 x6 x7 :=
  ((dat1 (F := Ideal) V c).arrAt_eq_of_cover 3 _ (fun t _ => flushed1_3_eq V c t) covered1_3).trans (rowLin_eq _ _ _ _ fun J => by
    rw [h3, h6, h4 J, val_main_v29_apply, val_main_v27_apply, val_main_v28_apply]
    refine congrArg₂ (· + ·) (Finset.sum_congr rfl fun k _ => ?_) (congrArg x7 (eq_ix1 _))
    rw [val_main_v26_apply]
    exact congrArg₂ (· * ·) (congrArg _ (eq_ix2 _)) (congrArg x6 (eq_ix2 _)))

end Cert.KernelIdeal.Hand

end
-- ==== Proof.KernelIdeal.R2V.lean ====
import proofs.«418227_j23983097381305_3_alg».proof.Proof.KernelIdeal.R2
import proofs.«418227_j23983097381305_3_alg».proof.Proof.RefStages
import proofs.«418227_j23983097381305_3_alg».proof.Proof.LibRowDot

noncomputable section

namespace Cert.KernelIdeal.Hand

open Cert.KernelIdeal Cert.KernelIdeal.Gen
open Idealize.ShloMosaic Idealize.ShloMosaic.TcCoe Idealize.ShloMosaic.ValueIdx
open Cert.ReferenceIdeal.Read
open scoped BigOperators

/-- The casts around the product are the identity at the extended reals, so each payload is the row product plus the bias entry; the second payload is the same term as the first. -/
theorem k2_pay1_apply (x : Vec Ideal S1x2048 .f32) (w : Vec Ideal S512x2048 .f32) (b : Vec Ideal S1x512 .f32) (q : Fin 512) :
    k2_pay1 (F := Ideal) x w b (ix2 (0 : Fin 1) q) = (∑ k : Fin 2048, x (ix2 (0 : Fin 1) k) * w (ix2 q k)) + b (ix2 (0 : Fin 1) q) := by
  unfold k2_pay1
  rw [shapeCast_self, shapeCast_self]
  exact (addf_apply _ _ _).trans (congrArg (· + _) (matmulT_apply none _ _ 0 q))

variable (V : (c : Dev nD) → (b : Ref sig .tc) → Buf (Elt Ideal) ((c : Thread nD τ).loc b))

theorem idx_facts2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = t.val
    ∧ win2_5.index t (0 : Fin 2) = 0 ∧ win2_5.index t (1 : Fin 2) = t.val
    ∧ win2_6.index t (0 : Fin 2) = 0 ∧ win2_6.index t (1 : Fin 2) = t.val
    ∧ win2_7.index t (0 : Fin 2) = 0 ∧ win2_7.index t (1 : Fin 2) = t.val :=
  (by decide +kernel : ∀ t : Fin grid2.N, _)

/-- Block t of x · Wᵀ + b is the row x against rows 512·t … of W plus columns 512·t … of b: point t's three operands, for either output. -/
theorem flushed2_6_eq (c : Dev nD) (t : Fin cfg2.N) :
    (dat2 (F := Ideal) V c).flushed 6 t = ((cfg2.win 6).blk t).view.read (Elt Ideal) (rowLin (V c main_v6) (V c main_arg8) (V c main_v7)) := by
  show (cfg2.win 6).cut (grid2.coords t) ((dat2 V c).after 6 t) = _
  rw [after2_6]
  unfold out2_6
  rw [View.canon_unit_zero off00]
  simp only [View.ld_unit_zero (S := S1x2048) off00, View.ld_unit_zero (S := S512x2048) off00, View.ld_unit_zero (S := S1x512) off00]
  obtain ⟨e00, e01, e10, e11, e20, e21, e30, e31, e40, e41, e50, e51, e60, e61, e70, e71⟩ := idx_facts2 t
  funext j
  obtain ⟨p, q, rfl⟩ : ∃ (p : Fin 1) (q : Fin 512), j = ix2 p q := ⟨j 0, j 1, eq_ix2 j⟩
  obtain rfl : p = 0 := Subsingleton.elim _ _
  refine (k2_pay1_apply _ _ _ q).trans (congrArg₂ (· + ·) (Finset.sum_congr rfl fun k _ => congrArg₂ (· * ·) ?_ ?_) ?_)
  · exact congrArg (V c main_v6) (idx2_ext (by show win2_0.index t 0 * 1 + 1 * 0 = 0; omega) (by show win2_0.index t 1 * 2048 + 1 * k.val = k.val; omega))
  · exact congrArg (V c main_arg8) (idx2_ext (by show win2_2.index t 0 * 512 + 1 * q.val = win2_6.index t 1 * 512 + 1 * q.val; omega) (by show win2_2.index t 1 * 2048 + 1 * k.val = k.val; omega))
  · exact congrArg (V c main_v7) (idx2_ext (by show win2_4.index t 0 * 1 + 1 * 0 = win2_6.index t 0 * 1 + 1 * 0; omega) (by show win2_4.index t 1 * 512 + 1 * q.val = win2_6.index t 1 * 512 + 1 * q.val; omega))

theorem flushed2_7_eq (c : Dev nD) (t : Fin cfg2.N) :
    (dat2 (F := Ideal) V c).flushed 7 t = ((cfg2.win 7).blk t).view.read (Elt Ideal) (rowLin (V c main_v0) (V c main_arg9) (V c main_v8)) := by
  show (cfg2.win 7).cut (grid2.coords t) ((dat2 V c).after 7 t) = _
  rw [after2_7]
  unfold out2_7
  rw [View.canon_unit_zero off00]
  simp only [View.ld_unit_zero (S := S1x2048) off00, View.ld_unit_zero (S := S512x2048) off00, View.ld_unit_zero (S := S1x512) off00]
  obtain ⟨e00, e01, e10, e11, e20, e21, e30, e31, e40, e41, e50, e51, e60, e61, e70, e71⟩ := idx_facts2 t
  funext j
  obtain ⟨p, q, rfl⟩ : ∃ (p : Fin 1) (q : Fin 512), j = ix2 p q := ⟨j 0, j 1, eq_ix2 j⟩
  obtain rfl : p = 0 := Subsingleton.elim _ _
  refine (k2_pay1_apply _ _ _ q).trans (congrArg₂ (· + ·) (Finset.sum_congr rfl fun k _ => congrArg₂ (· * ·) ?_ ?_) ?_)
  · exact congrArg (V c main_v0) (idx2_ext (by show win2_1.index t 0 * 1 + 1 * 0 = 0; omega) (by show win2_1.index t 1 * 2048 + 1 * k.val = k.val; omega))
  · exact congrArg (V c main_arg9) (idx2_ext (by show win2_3.index t 0 * 512 + 1 * q.val = win2_7.index t 1 * 512 + 1 * q.val; omega) (by show win2_3.index t 1 * 2048 + 1 * k.val = k.val; omega))
  · exact congrArg (V c main_v8) (idx2_ext (by show win2_5.index t 0 * 1 + 1 * 0 = win2_7.index t 0 * 1 + 1 * 0; omega) (by show win2_5.index t 1 * 512 + 1 * q.val = win2_7.index t 1 * 512 + 1 * q.val; omega))

theorem covered2_6 (i : S1x6144.Idx) : ∃ t : Fin cfg2.N, (cfg2.win 6).flush t = true ∧ i ∈ ((cfg2.win 6).blk t).view.set := by
  have hi1 : (i 1).val < 6144 := (i 1).isLt
  obtain ⟨t, ht⟩ : ∃ t : Fin cfg2.N, t.val = (i 1).val / 512 := ⟨⟨(i 1).val / 512, lt_of_lt_of_eq (by omega) N_2.symm⟩, rfl⟩
  obtain ⟨-, -, -, -, -, -, -, -, -, -, -, -, h0, h1, -, -⟩ := idx_facts2 t
  refine ⟨t, flush2_6 t, ?_⟩
  show i ∈ ((View.whole main_v9_0).slice (win2_6.rect t)).set
  rw [View.set_slice_whole, Rect.mem_set_unit]
  exact row_cover 512 i (win2_6.index t) (win2_6.xsize (grid2.coords t)) h0 (h1.trans ht) rfl (by show (i 1).val < (i 1).val / 512 * 512 + 512; omega)

theorem covered2_7 (i : S1x6144.Idx) : ∃ t : Fin cfg2.N, (cfg2.win 7).flush t = true ∧ i ∈ ((cfg2.win 7).blk t).view.set := by
  have hi1 : (i 1).val < 6144 := (i 1).isLt
  obtain ⟨t, ht⟩ : ∃ t : Fin cfg2.N, t.val = (i 1).val / 512 := ⟨⟨(i 1).val / 512, lt_of_lt_of_eq (by omega) N_2.symm⟩, rfl⟩
  obtain ⟨-, -, -, -, -, -, -, -, -, -, -, -, -, -, h0, h1⟩ := idx_facts2 t
  refine ⟨t, flush2_7 t, ?_⟩
  show i ∈ ((View.whole main_v9_1).slice (win2_7.rect t)).set
  rw [View.set_slice_whole, Rect.mem_set_unit]
  exact row_cover 512 i (win2_7.index t) (win2_7.xsize (grid2.coords t)) h0 (h1.trans ht) rfl (by show (i 1).val < (i 1).val / 512 * 512 + 512; omega)

theorem stage2_gi (c : Dev nD) (x0 : (⟨Cert.ReferenceIdeal.S1, .i32⟩ : BufTy).Contents (Elt Ideal)) (x1 : (⟨Cert.ReferenceIdeal.S1x1x2048, .f32⟩ : BufTy).Contents (Elt Ideal))
    (x2 : (⟨Cert.ReferenceIdeal.S64x2048, .f32⟩ : BufTy).Contents (Elt Ideal)) (x3 : (⟨Cert.ReferenceIdeal.S50257x2048, .f32⟩ : BufTy).Contents (Elt Ideal))
    (x4 : (⟨Cert.ReferenceIdeal.S64x4096, .f32⟩ : BufTy).Contents (Elt Ideal)) (x5 : (⟨Cert.ReferenceIdeal.S64, .f32⟩ : BufTy).Contents (Elt Ideal))
    (x6 : (⟨Cert.ReferenceIdeal.S2048x4096, .f32⟩ : BufTy).Contents (Elt Ideal)) (x7 : (⟨Cert.ReferenceIdeal.S2048, .f32⟩ : BufTy).Contents (Elt Ideal))
    (x8 : (⟨Cert.ReferenceIdeal.S6144x2048, .f32⟩ : BufTy).Contents (Elt Ideal)) (x10 : (⟨Cert.ReferenceIdeal.S6144, .f32⟩ : BufTy).Contents (Elt Ideal))
    (h6 : V c main_v6 = Cert.ReferenceIdeal.Read.val_main_v30 (F := Ideal) x0 x1 x2 x3 x4 x5 x6 x7)
    (h8 : V c main_arg8 = x8) (h7 : ∀ j : Fin 6144, V c main_v7 (ix2 (0 : Fin 1) j) = x10 (ix1 j)) :
    (dat2 (F := Ideal) V c).arrAt 6 cfg2.N = Cert.ReferenceIdeal.Read.val_main_v34 (F := Ideal) x0 x1 x2 x3 x4 x5 x6 x7 x8 x10 :=
  ((dat2 (F := Ideal) V c).arrAt_eq_of_cover 6 _ (fun t _ => flushed2_6_eq V c t) covered2_6).trans (rowLin_eq _ _ _ _ fun J => by
    rw [h6, h8, h7 J, val_main_v34_apply, val_main_v32_apply, val_main_v33_apply]
    refine congrArg₂ (· + ·) (Finset.sum_congr rfl fun k _ => ?_) (congrArg x10 (eq_ix1 _))
    rw [val_main_v31_apply]
    exact congrArg₂ (· * ·) (congrArg _ (eq_ix2 _)) (congrArg x8 (eq_ix2 _)))

theorem stage2_gh (c : Dev nD) (x1 : (⟨Cert.ReferenceIdeal.S1x1x2048, .f32⟩ : BufTy).Contents (Elt Ideal))
    (x9 : (⟨Cert.ReferenceIdeal.S6144x2048, .f32⟩ : BufTy).Contents (Elt Ideal)) (x11 : (⟨Cert.ReferenceIdeal.S6144, .f32⟩ : BufTy).Contents (Elt Ideal))
    (h0 : V c main_v0 = Cert.ReferenceIdeal.Read.val_main_v7 (F := Ideal) x1) (h9 : V c main_arg9 = x9)
    (h8' : ∀ j : Fin 6144, V c main_v8 (ix2 (0 : Fin 1) j) = x11 (ix1 j)) :
    (dat2 (F := Ideal) V c).arrAt 7 cfg2.N = Cert.ReferenceIdeal.Read.val_main_v38 (F := Ideal) x1 x9 x11 :=
  ((dat2 (F := Ideal) V c).arrAt_eq_of_cover 7 _ (fun t _ => flushed2_7_eq V c t) covered2_7).trans (rowLin_eq _ _ _ _ fun J => by
    rw [h0, h9, h8' J, val_main_v38_apply, val_main_v36_apply, val_main_v37_apply]
    refine congrArg₂ (· + ·) (Finset.sum_congr rfl fun k _ => ?_) (congrArg x11 (eq_ix1 _))
    rw [val_main_v35_apply]
    exact congrArg₂ (· * ·) (congrArg _ (eq_ix2 _)) (congrArg x9 (eq_ix2 _)))

end Cert.KernelIdeal.Hand

end
-- ==== Proof.KernelIdeal.R3V.lean ====
import proofs.«418227_j23983097381305_3_alg».proof.Proof.KernelIdeal.R3
import proofs.«418227_j23983097381305_3_alg».proof.Proof.RefStages
import proofs.«418227_j23983097381305_3_alg».proof.Proof.LibRowDot

noncomputable section

namespace Cert.KernelIdeal.Hand

open Cert.KernelIdeal Cert.KernelIdeal.Gen
open Idealize.ShloMosaic Idealize.ShloMosaic.TcCoe Idealize.ShloMosaic.ValueIdx
open Cert.ReferenceIdeal.Read
open scoped BigOperators

variable (V : (c : Dev nD) → (b : Ref sig .tc) → Buf (Elt Ideal) ((c : Thread nD τ).loc b))

theorem idx_facts3 : ∀ t : Fin cfg3.N,
    win3_0.index t (0 : Fin 2) = 0 ∧ win3_0.index t (1 : Fin 2) = 0
    ∧ win3_1.index t (0 : Fin 2) = t.val ∧ win3_1.index t (1 : Fin 2) = 0
    ∧ win3_2.index t (0 : Fin 2) = 0 ∧ win3_2.index t (1 : Fin 2) = t.val
    ∧ win3_3.index t (0 : Fin 2) = 0 ∧ win3_3.index t (1 : Fin 2) = t.val :=
  (by decide +kernel : ∀ t : Fin grid3.N, _)

/-- The output's blocks are cut at the array's 50257 columns. -/
theorem xsize_facts3 : ∀ t : Fin cfg3.N,
    win3_3.xsize (grid3.coords t) (0 : Fin 2) = 1
    ∧ t.val * 1536 + win3_3.xsize (grid3.coords t) (1 : Fin 2) = min (t.val * 1536 + 1536) 50257 :=
  (by decide +kernel : ∀ t : Fin grid3.N, _)

/-- Block t of h · Wᵀ + b, as far as it lies inside the array, is the row h against rows 1536·t … of W plus columns 1536·t … of b: point t's three operands. -/
theorem flushed3_eq (c : Dev nD) (t : Fin cfg3.N) :
    (dat3 V c).flushed 3 t = ((cfg3.win 3).blk t).view.read (Elt Ideal) (rowLin (V c main_v37) (V c main_arg12) (V c main_v38)) := by
  show (cfg3.win 3).cut (cfg3.grid.coords t) ((dat3 V c).after 3 t) = _
  rw [after3_3]
  obtain ⟨e00, e01, e10, e11, e20, e21, e30, e31⟩ := idx_facts3 t
  funext j
  have hq : (j 1).val < 1536 := Nat.lt_of_lt_of_le (j 1).isLt ((cfg3.win 3).xsize_le (cfg3.grid.coords t) 1)
  have h0 : (j 0).val < 1 := Nat.lt_of_lt_of_le (j 0).isLt ((cfg3.win 3).xsize_le (cfg3.grid.coords t) 0)
  have e : (cfg3.win 3).xinj (cfg3.grid.coords t) j = ix2 (0 : Fin 1) (⟨(j 1).val, hq⟩ : Fin 1536) := idx2_ext (by show (j 0).val = 0; omega) rfl
  have hm1 : ∀ (k : Fin 2048) (a : Fin 2), ((ix2 (⟨(j 1).val, hq⟩ : Fin 1536) k : S1536x2048.Idx) a).val < (cfg3.win 1).xsize (cfg3.grid.coords t) a := fun k a => by
    match a with
    | ⟨0, _⟩ => exact (j 1).isLt
    | ⟨1, _⟩ => exact k.isLt
  have hm2 : ∀ a : Fin 2, ((ix2 (0 : Fin 1) (⟨(j 1).val, hq⟩ : Fin 1536) : S1x1536.Idx) a).val < (cfg3.win 2).xsize (cfg3.grid.coords t) a := fun a => by
    match a with
    | ⟨0, _⟩ => exact Nat.zero_lt_one
    | ⟨1, _⟩ => exact (j 1).isLt
  show out3_3 _ _ _ ((cfg3.win 3).xinj (cfg3.grid.coords t) j) = _
  rw [e, out3_3_apply]
  refine congrArg₂ (· + ·) (Finset.sum_congr rfl fun k _ => congrArg₂ (· * ·) ?_ ?_) ?_
  · exact congrArg (V c main_v37) (idx2_ext (by show win3_0.index t 0 * 1 + 1 * 0 = 0; omega) (by show win3_0.index t 1 * 2048 + 1 * k.val = k.val; omega))
  · exact ((cfg3.win 1).fill_xinj _ _ _ fun a => ⟨_, hm1 k a⟩).trans <| congrArg (V c main_arg12) (idx2_ext (by show win3_1.index t 0 * 1536 + 1 * (j 1).val = win3_3.index t 1 * 1536 + 1 * (j 1).val; omega) (by show win3_1.index t 1 * 2048 + 1 * k.val = k.val; omega))
  · exact ((cfg3.win 2).fill_xinj _ _ _ fun a => ⟨_, hm2 a⟩).trans <| congrArg (V c main_v38) (idx2_ext (by show win3_2.index t 0 * 1 + 1 * 0 = win3_3.index t 0 * 1 + 1 * (j 0).val; omega) (by show win3_2.index t 1 * 1536 + 1 * (j 1).val = win3_3.index t 1 * 1536 + 1 * (j 1).val; omega))

theorem covered3 (i : S1x50257.Idx) : ∃ t : Fin cfg3.N, (cfg3.win 3).flush t = true ∧ i ∈ ((cfg3.win 3).blk t).view.set := by
  have hi1 : (i 1).val < 50257 := (i 1).isLt
  obtain ⟨t, ht⟩ : ∃ t : Fin cfg3.N, t.val = (i 1).val / 1536 := ⟨⟨(i 1).val / 1536, lt_of_lt_of_eq (by omega) N_3.symm⟩, rfl⟩
  obtain ⟨-, -, -, -, -, -, e30, e31⟩ := idx_facts3 t
  obtain ⟨x0, x1⟩ := xsize_facts3 t
  refine ⟨t, flush3_3 t, ?_⟩
  show i ∈ ((View.whole main_v39).slice (win3_3.rect t)).set
  rw [View.set_slice_whole, Rect.mem_set_unit]
  exact row_cover 1536 i (win3_3.index t) (win3_3.xsize (grid3.coords t)) e30 (e31.trans ht) x0 (by omega)

theorem stage3 (c : Dev nD) (x0 : (⟨Cert.ReferenceIdeal.S1, .i32⟩ : BufTy).Contents (Elt Ideal)) (x1 : (⟨Cert.ReferenceIdeal.S1x1x2048, .f32⟩ : BufTy).Contents (Elt Ideal))
    (x2 : (⟨Cert.ReferenceIdeal.S64x2048, .f32⟩ : BufTy).Contents (Elt Ideal)) (x3 : (⟨Cert.ReferenceIdeal.S50257x2048, .f32⟩ : BufTy).Contents (Elt Ideal))
    (x4 : (⟨Cert.ReferenceIdeal.S64x4096, .f32⟩ : BufTy).Contents (Elt Ideal)) (x5 : (⟨Cert.ReferenceIdeal.S64, .f32⟩ : BufTy).Contents (Elt Ideal))
    (x6 : (⟨Cert.ReferenceIdeal.S2048x4096, .f32⟩ : BufTy).Contents (Elt Ideal)) (x7 : (⟨Cert.ReferenceIdeal.S2048, .f32⟩ : BufTy).Contents (Elt Ideal))
    (x8 x9 : (⟨Cert.ReferenceIdeal.S6144x2048, .f32⟩ : BufTy).Contents (Elt Ideal)) (x10 x11 : (⟨Cert.ReferenceIdeal.S6144, .f32⟩ : BufTy).Contents (Elt Ideal))
    (x12 : (⟨Cert.ReferenceIdeal.S50257x2048, .f32⟩ : BufTy).Contents (Elt Ideal)) (x13 : (⟨Cert.ReferenceIdeal.S50257, .f32⟩ : BufTy).Contents (Elt Ideal))
    (h37 : V c main_v37 = Cert.ReferenceIdeal.Read.val_main_v66 (F := Ideal) x0 x1 x2 x3 x4 x5 x6 x7 x8 x9 x10 x11)
    (h12 : V c main_arg12 = x12) (h38 : ∀ j : Fin 50257, V c main_v38 (ix2 (0 : Fin 1) j) = x13 (ix1 j)) :
    (dat3 V c).arrAt 3 cfg3.N = Cert.ReferenceIdeal.Read.val_main_v70 (F := Ideal) x0 x1 x2 x3 x4 x5 x6 x7 x8 x9 x10 x11 x12 x13 :=
  ((dat3 V c).arrAt_eq_of_cover 3 _ (fun t _ => flushed3_eq V c t) covered3).trans (rowLin_eq _ _ _ _ fun J => by
    rw [h37, h12, h38 J, val_main_v70_apply, val_main_v68_apply, val_main_v69_apply]
    refine congrArg₂ (· + ·) (Finset.sum_congr rfl fun k _ => ?_) (congrArg x13 (eq_ix1 _))
    rw [val_main_v67_apply]
    exact congrArg₂ (· * ·) (congrArg _ (eq_ix2 _)) (congrArg x12 (eq_ix2 _)))

end Cert.KernelIdeal.Hand

end
-- ==== Proof.KernelIdeal.ValI.lean ====
import proofs.«418227_j23983097381305_3_alg».proof.Proof.KernelIdeal.KeepI
import proofs.«418227_j23983097381305_3_alg».proof.Proof.KernelIdeal.HostGlue
import proofs.«418227_j23983097381305_3_alg».proof.Proof.KernelIdeal.R0V
import proofs.«418227_j23983097381305_3_alg».proof.Proof.KernelIdeal.R0W
import proofs.«418227_j23983097381305_3_alg».proof.Proof.KernelIdeal.R1V
import proofs.«418227_j23983097381305_3_alg».proof.Proof.KernelIdeal.R2V
import proofs.«418227_j23983097381305_3_alg».proof.Proof.KernelIdeal.R3V

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx (ix1 ix2 ix3)
open Cert.ReferenceIdeal.Read

variable (m : (ℓ : Loc nD τ sig) → Buf (Elt Ideal) ℓ) (hw : k0_chk1 (tword0 (F := Ideal) (tbl m 0)))
  (hlt : (m (((0 : Dev nD).tc : Thread nD τ).loc main_arg0) (ix1 (0 : Fin 1))).toNat < 50257) (c : Dev nD)

theorem st_h0_1 : W1 m c (Proc.devRef .tc main_v0) = val_main_v7 (F := Ideal) (arg1 m c) :=
  glue_h0 (W0 m c) _ rfl
theorem st_b0_1 (j : Fin 64) : W1 m c (Proc.devRef .tc main_v1) (ix2 (0 : Fin 1) j) = (arg5 m c) (ix1 j) :=
  glue_bias0 (W0 m c) j

theorem tbl_word : (adm m 0).1 0 = (arg0 m c) := by obtain rfl := dev_eq c; rfl

include hlt

theorem st_emb_2 : W2 m hw c (Proc.devRef .tc main_v2_0) = val_main_v6 (F := Ideal) (arg0 m c) (arg3 m c) :=
  (W2_arr m hw c 4).trans (stage0_emb (V1 m) (adm m 0) hw c _ _ (tbl_word m c) (W1_arg m c main_arg3 (by decide)) (by obtain rfl := dev_eq c; exact hlt))
theorem st_aw_2 : W2 m hw c (Proc.devRef .tc main_v2_1) = val_main_v23 (F := Ideal) (arg0 m c) (arg1 m c) (arg3 m c) (arg4 m c) (arg5 m c) :=
  (W2_arr m hw c 5).trans (stage0_aw (V1 m) (adm m 0) hw c _ _ _ _ _ (tbl_word m c) (W1_arg m c main_arg3 (by decide)) (by obtain rfl := dev_eq c; exact hlt)
    (st_h0_1 m c) (W1_arg m c main_arg4 (by decide)) (st_b0_1 m c))
theorem st_app_2 : W2 m hw c (Proc.devRef .tc main_v2_2) = val_main_v24 (F := Ideal) (arg0 m c) (arg1 m c) (arg2 m c) (arg3 m c) (arg4 m c) (arg5 m c) :=
  (W2_arr m hw c 6).trans (stage0_app (V1 m) (adm m 0) hw c _ _ _ _ _ _ (tbl_word m c) (W1_arg m c main_arg3 (by decide)) (by obtain rfl := dev_eq c; exact hlt)
    (st_h0_1 m c) (W1_arg m c main_arg4 (by decide)) (st_b0_1 m c) (W1_arg m c main_arg2 (by decide)))

theorem st_cat_3 : W3 m hw c (Proc.devRef .tc main_v3) = val_main_v25 (F := Ideal) (arg0 m c) (arg1 m c) (arg2 m c) (arg3 m c) (arg4 m c) (arg5 m c) :=
  glue_cat (W2 m hw c) _ _ _ _ _ _ (st_emb_2 m hw hlt c) (st_app_2 m hw hlt c)
omit hlt in
theorem st_b1_3 (j : Fin 2048) : W3 m hw c (Proc.devRef .tc main_v4) (ix2 (0 : Fin 1) j) = (arg7 m c) (ix1 j) :=
  (glue_bias1 (W2 m hw c) j).trans (congrFun (W2_arg m hw c main_arg7 (by decide)) (ix1 j))
theorem st_pre_4 : W4 m hw c (Proc.devRef .tc main_v5) = val_main_v29 (F := Ideal) (arg0 m c) (arg1 m c) (arg2 m c) (arg3 m c) (arg4 m c) (arg5 m c) (arg6 m c) (arg7 m c) :=
  (W4_arr m hw c 3).trans (stage1 (V3 m hw) c _ _ _ _ _ _ _ _ (st_cat_3 m hw hlt c) (W3_arg m hw c main_arg6 (by decide)) (st_b1_3 m hw c))
theorem st_x_5 : W5 m hw c (Proc.devRef .tc main_v6) = val_main_v30 (F := Ideal) (arg0 m c) (arg1 m c) (arg2 m c) (arg3 m c) (arg4 m c) (arg5 m c) (arg6 m c) (arg7 m c) :=
  glue_relu (W4 m hw c) _ _ _ _ _ _ _ _ (st_pre_4 m hw hlt c)

theorem st_x_6 : W6 m hw c (Proc.devRef .tc main_v6) = val_main_v30 (F := Ideal) (arg0 m c) (arg1 m c) (arg2 m c) (arg3 m c) (arg4 m c) (arg5 m c) (arg6 m c) (arg7 m c) :=
  ((W6_keep m hw c main_v6 (by decide))).trans (st_x_5 m hw hlt c)
omit hlt in
theorem st_h0_6 : W6 m hw c (Proc.devRef .tc main_v0) = val_main_v7 (F := Ideal) (arg1 m c) :=
  ((W6_keep m hw c main_v0 (by decide)).trans <| (W5_keep m hw c main_v0 (by decide)).trans <| (W4_keep m hw c main_v0 (by decide)).trans <| (W3_keep m hw c main_v0 (by decide)).trans <| (W2_keep m hw c main_v0 (by decide))).trans (st_h0_1 m c)
omit hlt in
theorem st_bih_6 (j : Fin 6144) : W6 m hw c (Proc.devRef .tc main_v7) (ix2 (0 : Fin 1) j) = (arg10 m c) (ix1 j) :=
  (glue_bias2_ih (W5 m hw c) j).trans (congrFun (W5_arg m hw c main_arg10 (by decide)) (ix1 j))
omit hlt in
theorem st_bhh_6 (j : Fin 6144) : W6 m hw c (Proc.devRef .tc main_v8) (ix2 (0 : Fin 1) j) = (arg11 m c) (ix1 j) :=
  (glue_bias2_hh (W5 m hw c) j).trans (congrFun (W5_arg m hw c main_arg11 (by decide)) (ix1 j))
theorem st_gi_7 : W7 m hw c (Proc.devRef .tc main_v9_0) = val_main_v34 (F := Ideal) (arg0 m c) (arg1 m c) (arg2 m c) (arg3 m c) (arg4 m c) (arg5 m c) (arg6 m c) (arg7 m c) (arg8 m c) (arg10 m c) :=
  (W7_arr m hw c 6).trans (stage2_gi (V6 m hw) c _ _ _ _ _ _ _ _ _ _ (st_x_6 m hw hlt c) (W6_arg m hw c main_arg8 (by decide)) (st_bih_6 m hw c))
omit hlt in
theorem st_gh_7 : W7 m hw c (Proc.devRef .tc main_v9_1) = val_main_v38 (F := Ideal) (arg1 m c) (arg9 m c) (arg11 m c) :=
  (W7_arr m hw c 7).trans (stage2_gh (V6 m hw) c _ _ _ (st_h0_6 m hw c) (W6_arg m hw c main_arg9 (by decide)) (st_bhh_6 m hw c))

theorem st_h_8 : W8 m hw c (Proc.devRef .tc main_v37) = val_main_v66 (F := Ideal) (arg0 m c) (arg1 m c) (arg2 m c) (arg3 m c) (arg4 m c) (arg5 m c) (arg6 m c) (arg7 m c) (arg8 m c) (arg9 m c) (arg10 m c) (arg11 m c) :=
  glue_gru (W7 m hw c) _ _ _ _ _ _ _ _ _ _ _ _ (st_gi_7 m hw hlt c) (st_gh_7 m hw c) (((W7_keep m hw c main_v0 (by decide))).trans (st_h0_6 m hw c))
omit hlt in
theorem st_bo_8 (j : Fin 50257) : W8 m hw c (Proc.devRef .tc main_v38) (ix2 (0 : Fin 1) j) = (arg13 m c) (ix1 j) :=
  (glue_bias3 (W7 m hw c) j).trans (congrFun (W7_arg m hw c main_arg13 (by decide)) (ix1 j))
theorem st_logits_9 : W9 m hw c (Proc.devRef .tc main_v39) = val_main_v70 (F := Ideal) (arg0 m c) (arg1 m c) (arg2 m c) (arg3 m c) (arg4 m c) (arg5 m c) (arg6 m c) (arg7 m c) (arg8 m c) (arg9 m c) (arg10 m c) (arg11 m c) (arg12 m c) (arg13 m c) :=
  (W9_arr m hw c 3).trans (stage3 (V8 m hw) c _ _ _ _ _ _ _ _ _ _ _ _ _ _ (st_h_8 m hw hlt c) (W8_arg m hw c main_arg12 (by decide)) (st_bo_8 m hw c))

theorem result_out : W11 m hw c (Proc.devRef .tc main_v40) = val_main_v71 (F := Ideal) (arg0 m c) (arg1 m c) (arg2 m c) (arg3 m c) (arg4 m c) (arg5 m c) (arg6 m c) (arg7 m c) (arg8 m c) (arg9 m c) (arg10 m c) (arg11 m c) (arg12 m c) (arg13 m c) :=
  ((W11_keep m hw c main_v40 (by decide))).trans (glue_logsm (W9 m hw c) _ _ _ _ _ _ _ _ _ _ _ _ _ _ (st_logits_9 m hw hlt c))

theorem result_hidden : W11 m hw c (Proc.devRef .tc main_v41) = val_main_v72 (F := Ideal) (arg0 m c) (arg1 m c) (arg2 m c) (arg3 m c) (arg4 m c) (arg5 m c) (arg6 m c) (arg7 m c) (arg8 m c) (arg9 m c) (arg10 m c) (arg11 m c) :=
  glue_out (W10 m hw c) _ _ _ _ _ _ _ _ _ _ _ _ (((W10_keep m hw c main_v37 (by decide)).trans <| (W9_keep m hw c main_v37 (by decide))).trans (st_h_8 m hw hlt c))

theorem result_attn : W11 m hw c (Proc.devRef .tc main_v2_1) = val_main_v23 (F := Ideal) (arg0 m c) (arg1 m c) (arg3 m c) (arg4 m c) (arg5 m c) :=
  ((W11_keep m hw c main_v2_1 (by decide)).trans <| (W10_keep m hw c main_v2_1 (by decide)).trans <| (W9_keep m hw c main_v2_1 (by decide)).trans <| (W8_keep m hw c main_v2_1 (by decide)).trans <| (W7_keep m hw c main_v2_1 (by decide)).trans <| (W6_keep m hw c main_v2_1 (by decide)).trans <| (W5_keep m hw c main_v2_1 (by decide)).trans <| (W4_keep m hw c main_v2_1 (by decide)).trans <| (W3_keep m hw c main_v2_1 (by decide))).trans (st_aw_2 m hw hlt c)

end Cert.KernelIdeal.Hand

end
-- ==== Proof.RefRun.lean ====
import proofs.«418227_j23983097381305_3_alg».proof.Proof.RefRunFront
import proofs.«418227_j23983097381305_3_alg».proof.Proof.RefStages
import Idealize.ShloMosaic.Lib.StableHlo.Run
import Idealize.ShloMosaic.Lib.Pipeline.Frame
import Idealize.ShloMosaic.Lib.Pipeline.Regions

noncomputable section

namespace Cert.ReferenceIdeal.RunH

open Cert.ReferenceIdeal Cert.ReferenceIdeal.Gen Cert.ReferenceIdeal.RunFront Idealize.ShloMosaic Idealize.ShloMosaic.TcCoe Idealize.SL.Sem Idealize.ShloMosaic.StableHlo

variable {F : FTy → Type} [FloatOps F]

/-- Operations `i` to `i + n - 1` of the program (counted from 0). -/
abbrev cut (i n : Nat) : List (HloOp τ sig (Elt F)) := (ops.drop i).take n

/-- Cut before each concatenation and after the logits, so that a value read more than once enters a stretch by name. -/
theorem ops_split : (ops : List (HloOp τ sig (Elt F))) = cut 0 10 ++ (cut 10 20 ++ (cut 30 16 ++ (cut 46 33 ++ (cut 79 4 ++ cut 83 16)))) := rfl

/-- Every operation of `l` writes only references listed in `Wl`. -/
abbrev Writes (l : List (HloOp τ sig (Elt F))) (Wl : List (Ref sig .tc)) : Prop :=
  l.Forall fun op => op.writes ⊆ (Wl.map (Proc.devRef (τ := τ) .tc)).toFinset

theorem sub_of_mem {Wl : List (Ref sig .tc)} {y : Ref sig .tc} (h : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map_of_mem h))

abbrev wA : List (Ref sig .tc) := [main_c, main_v0, main_v1, main_c_0, main_v2, main_v3, main_v4, main_v5, main_v6, main_v7]
theorem writesA : Writes (F := F) (cut 0 10) wA := by
  dsimp only [Writes, cut, ops, List.take, List.drop]; simp only [List.Forall]; repeat' constructor
  all_goals exact sub_of_mem (by decide)

abbrev wB : List (Ref sig .tc) := [main_v8, main_v9, main_v10, main_v11, main_v12, main_cst, main_v13, main_cst_1, main_v14, main_v15, main_v16, main_v17, main_v18, main_v19, main_cst_2, main_v20, main_v21, main_v22, main_v23, main_v24]
theorem writesB : Writes (F := F) (cut 10 20) wB := by
  dsimp only [Writes, cut, ops, List.take, List.drop]; simp only [List.Forall]; repeat' constructor
  all_goals exact sub_of_mem (by decide)

abbrev wC : List (Ref sig .tc) := [main_v25, main_v26, main_v27, main_v28, main_v29, main_call0_cst, main_call0_v0, main_v30, main_v31, main_v32, main_v33, main_v34, main_v35, main_v36, main_v37, main_v38]
theorem writesC : Writes (F := F) (cut 30 16) wC := by
  dsimp only [Writes, cut, ops, List.take, List.drop]; simp only [List.Forall]; repeat' constructor
  all_goals exact sub_of_mem (by decide)

abbrev wD : List (Ref sig .tc) := [main_v39, main_v40, main_v41, main_v42, main_v43, main_v44, main_v45, main_v46, main_v47, main_cst_3, main_v48, main_v49, main_cst_4, main_v50, main_v51, main_v52, main_v53, main_v54, main_cst_5, main_v55, main_v56, main_cst_6, main_v57, main_v58, main_v59, main_v60, main_v61, main_cst_7, main_v62, main_v63, main_v64, main_v65, main_v66]
theorem writesD : Writes (F := F) (cut 46 33) wD := by
  dsimp only [Writes, cut, ops, List.take, List.drop]; simp only [List.Forall]; repeat' constructor
  all_goals exact sub_of_mem (by decide)

abbrev wE : List (Ref sig .tc) := [main_v67, main_v68, main_v69, main_v70]
theorem writesE : Writes (F := F) (cut 79 4) wE := by
  dsimp only [Writes, cut, ops, List.take, List.drop]; simp only [List.Forall]; repeat' constructor
  all_goals exact sub_of_mem (by decide)

abbrev wG : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v71, main_v72]
theorem writesG : Writes (F := F) (cut 83 16) wG := by
  dsimp only [Writes, cut, ops, List.take, List.drop]; simp only [List.Forall]; repeat' constructor
  all_goals exact sub_of_mem (by decide)

abbrev argRefs : List (Ref sig .tc) := [main_arg0, main_arg1, main_arg2, main_arg3, main_arg4, main_arg5, main_arg6, main_arg7, main_arg8, main_arg9, main_arg10, main_arg11, main_arg12, main_arg13]

variable (W : Valuation τ sig (Elt F)) (x0 : (⟨S1, .i32⟩ : BufTy).Contents (Elt F)) (x1 : (⟨S1x1x2048, .f32⟩ : BufTy).Contents (Elt F)) (x2 : (⟨S64x2048, .f32⟩ : BufTy).Contents (Elt F)) (x3 : (⟨S50257x2048, .f32⟩ : BufTy).Contents (Elt F)) (x4 : (⟨S64x4096, .f32⟩ : BufTy).Contents (Elt F)) (x5 : (⟨S64, .f32⟩ : BufTy).Contents (Elt F)) (x6 : (⟨S2048x4096, .f32⟩ : BufTy).Contents (Elt F)) (x7 : (⟨S2048, .f32⟩ : BufTy).Contents (Elt F)) (x8 x9 : (⟨S6144x2048, .f32⟩ : BufTy).Contents (Elt F)) (x10 x11 : (⟨S6144, .f32⟩ : BufTy).Contents (Elt F)) (x12 : (⟨S50257x2048, .f32⟩ : BufTy).Contents (Elt F)) (x13 : (⟨S50257, .f32⟩ : BufTy).Contents (Elt F))

/-- The fourteen argument buffers hold x0 … x13 in `W`. -/
structure HoldsArgs : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10
  a11 : W (Proc.devRef .tc main_arg11) = x11
  a12 : W (Proc.devRef .tc main_arg12) = x12
  a13 : W (Proc.devRef .tc main_arg13) = x13

variable {W x0 x1 x2 x3 x4 x5 x6 x7 x8 x9 x10 x11 x12 x13}

/-- Operations that write no argument buffer keep that. -/
theorem HoldsArgs.after (h : HoldsArgs W x0 x1 x2 x3 x4 x5 x6 x7 x8 x9 x10 x11 x12 x13) {l : List (HloOp τ sig (Elt F))} {Wl : List (Ref sig .tc)} (hW : Writes l Wl)
    (hd : ∀ r ∈ argRefs, r ∉ Wl) : HoldsArgs (StableHlo.after l W) x0 x1 x2 x3 x4 x5 x6 x7 x8 x9 x10 x11 x12 x13 := by
  obtain ⟨_, _, _, _, _, _, _, _, _, _, _, _, _, _⟩ := h
  constructor <;> (rw [after_of_writes_sub l W hW (hd _ (by decide))]; assumption)

variable (W)

theorem readA_v6 (h : HoldsArgs W x0 x1 x2 x3 x4 x5 x6 x7 x8 x9 x10 x11 x12 x13) : after (cut 0 10) W (Proc.devRef .tc main_v6) = Read.val_main_v6 (F := F) x0 x3 := by
  dsimp only [cut, ops, List.take, List.drop]; after_results_simp; rw [h.a0, h.a3]; rfl
theorem readA_v7 (h : HoldsArgs W x0 x1 x2 x3 x4 x5 x6 x7 x8 x9 x10 x11 x12 x13) : after (cut 0 10) W (Proc.devRef .tc main_v7) = Read.val_main_v7 (F := F) x1 := by
  dsimp only [cut, ops, List.take, List.drop]; after_results_simp; rw [h.a1]; rfl
theorem readB_v23 (h : HoldsArgs W x0 x1 x2 x3 x4 x5 x6 x7 x8 x9 x10 x11 x12 x13) (h6 : W (Proc.devRef .tc main_v6) = Read.val_main_v6 (F := F) x0 x3) (h7 : W (Proc.devRef .tc main_v7) = Read.val_main_v7 (F := F) x1) : after (cut 10 20) W (Proc.devRef .tc main_v23) = Read.val_main_v23 (F := F) x0 x1 x3 x4 x5 := by
  dsimp only [cut, ops, List.take, List.drop]; after_results_simp; rw [h6, h7, h.a4, h.a5]; rfl
theorem readB_v24 (h : HoldsArgs W x0 x1 x2 x3 x4 x5 x6 x7 x8 x9 x10 x11 x12 x13) (h6 : W (Proc.devRef .tc main_v6) = Read.val_main_v6 (F := F) x0 x3) (h7 : W (Proc.devRef .tc main_v7) = Read.val_main_v7 (F := F) x1) : after (cut 10 20) W (Proc.devRef .tc main_v24) = Read.val_main_v24 (F := F) x0 x1 x2 x3 x4 x5 := by
  dsimp only [cut, ops, List.take, List.drop]; after_results_simp; rw [h6, h7, h.a2, h.a4, h.a5]; rfl
theorem readC_v34 (h : HoldsArgs W x0 x1 x2 x3 x4 x5 x6 x7 x8 x9 x10 x11 x12 x13) (h6 : W (Proc.devRef .tc main_v6) = Read.val_main_v6 (F := F) x0 x3) (h24 : W (Proc.devRef .tc main_v24) = Read.val_main_v24 (F := F) x0 x1 x2 x3 x4 x5) : after (cut 30 16) W (Proc.devRef .tc main_v34) = Read.val_main_v34 (F := F) x0 x1 x2 x3 x4 x5 x6 x7 x8 x10 := by
  dsimp only [cut, ops, List.take, List.drop]; after_results_simp
  try simp only [TRef.ofBuf, TRef.toBuf, cast_eq]
  rw [h6, h24, h.a6, h.a7, h.a8, h.a10]; rfl
theorem readC_v38 (h : HoldsArgs W x0 x1 x2 x3 x4 x5 x6 x7 x8 x9 x10 x11 x12 x13) (h7 : W (Proc.devRef .tc main_v7) = Read.val_main_v7 (F := F) x1) : after (cut 30 16) W (Proc.devRef .tc main_v38) = Read.val_main_v38 (F := F) x1 x9 x11 := by
  dsimp only [cut, ops, List.take, List.drop]; after_results_simp; rw [h7, h.a9, h.a11]; rfl
theorem readD_v66 (h34 : W (Proc.devRef .tc main_v34) = Read.val_main_v34 (F := F) x0 x1 x2 x3 x4 x5 x6 x7 x8 x10) (h38 : W (Proc.devRef .tc main_v38) = Read.val_main_v38 (F := F) x1 x9 x11) (h7 : W (Proc.devRef .tc main_v7) = Read.val_main_v7 (F := F) x1) : after (cut 46 33) W (Proc.devRef .tc main_v66) = Read.val_main_v66 (F := F) x0 x1 x2 x3 x4 x5 x6 x7 x8 x9 x10 x11 := by
  dsimp only [cut, ops, List.take, List.drop]; after_results_simp; rw [h34, h38, h7]; rfl
theorem readE_v70 (h : HoldsArgs W x0 x1 x2 x3 x4 x5 x6 x7 x8 x9 x10 x11 x12 x13) (h66 : W (Proc.devRef .tc main_v66) = Read.val_main_v66 (F := F) x0 x1 x2 x3 x4 x5 x6 x7 x8 x9 x10 x11) : after (cut 79 4) W (Proc.devRef .tc main_v70) = Read.val_main_v70 (F := F) x0 x1 x2 x3 x4 x5 x6 x7 x8 x9 x10 x11 x12 x13 := by
  dsimp only [cut, ops, List.take, List.drop]; after_results_simp; rw [h66, h.a12, h.a13]; rfl
/-- Stretch G's operations spelt without the type equations: the same list. -/
abbrev opsGp : List (HloOp τ sig (Elt F)) :=
  [ nullary main_call1_cst (constant S_ .f32 0xFF800000#32),
    binary main_v70 main_call1_cst main_call1_v0 ((fun x v => Host.reduce FloatOps.maximumf x v reducesTo_S1x50257_S1_d1 h_S_) : (⟨S1x50257, .f32⟩ : BufTy).Contents (Elt F) → (⟨S_, .f32⟩ : BufTy).Contents (Elt F) → (⟨S1, .f32⟩ : BufTy).Contents (Elt F)),
    nullary main_call1_cst_0 (constant S_ .f32 0xFF800000#32),
    unary main_call1_cst_0 main_call1_v1 ((broadcastInDim S1 ![] bcast_S_S1) : (⟨S_, .f32⟩ : BufTy).Contents (Elt F) → (⟨S1, .f32⟩ : BufTy).Contents (Elt F)),
    binary main_call1_v1 main_call1_v0 main_call1_v2 (maximumf : (⟨S1, .f32⟩ : BufTy).Contents (Elt F) → (⟨S1, .f32⟩ : BufTy).Contents (Elt F) → (⟨S1, .f32⟩ : BufTy).Contents (Elt F)),
    unary main_call1_v2 main_call1_v3 ((broadcastInDim S1x1 ![0] bcast_S1_S1x1_0) : (⟨S1, .f32⟩ : BufTy).Contents (Elt F) → (⟨S1x1, .f32⟩ : BufTy).Contents (Elt F)),
    unary main_call1_v3 main_call1_v4 ((broadcastInDim S1x50257 ![0, 1] bcast_S1x1_S1x50257_0_1) : (⟨S1x1, .f32⟩ : BufTy).Contents (Elt F) → (⟨S1x50257, .f32⟩ : BufTy).Contents (Elt F)),
    binary main_v70 main_call1_v4 main_call1_v5 (subf : (⟨S1x50257, .f32⟩ : BufTy).Contents (Elt F) → (⟨S1x50257, .f32⟩ : BufTy).Contents (Elt F) → (⟨S1x50257, .f32⟩ : BufTy).Contents (Elt F)),
    unary main_call1_v5 main_call1_v6 (Host.exp : (⟨S1x50257, .f32⟩ : BufTy).Contents (Elt F) → (⟨S1x50257, .f32⟩ : BufTy).Contents (Elt F)),
    nullary main_call1_cst_1 (constant S_ .f32 0x00000000#32),
    binary main_call1_v6 main_call1_cst_1 main_call1_v7 ((fun x v => Host.reduceAdd x v reducesTo_S1x50257_S1_d1 h_S_) : (⟨S1x50257, .f32⟩ : BufTy).Contents (Elt F) → (⟨S_, .f32⟩ : BufTy).Contents (Elt F) → (⟨S1, .f32⟩ : BufTy).Contents (Elt F)),
    unary main_call1_v7 main_call1_v8 ((broadcastInDim S1x1 ![0] bcast_S1_S1x1_0) : (⟨S1, .f32⟩ : BufTy).Contents (Elt F) → (⟨S1x1, .f32⟩ : BufTy).Contents (Elt F)),
    unary main_call1_v8 main_call1_v9 (Host.log : (⟨S1x1, .f32⟩ : BufTy).Contents (Elt F) → (⟨S1x1, .f32⟩ : BufTy).Contents (Elt F)),
    unary main_call1_v9 main_call1_v10 ((broadcastInDim S1x50257 ![0, 1] bcast_S1x1_S1x50257_0_1) : (⟨S1x1, .f32⟩ : BufTy).Contents (Elt F) → (⟨S1x50257, .f32⟩ : BufTy).Contents (Elt F)),
    binary main_call1_v5 main_call1_v10 main_v71 (subf : (⟨S1x50257, .f32⟩ : BufTy).Contents (Elt F) → (⟨S1x50257, .f32⟩ : BufTy).Contents (Elt F) → (⟨S1x50257, .f32⟩ : BufTy).Contents (Elt F)),
    unary main_v66 main_v72 (broadcastInDim S1x1x2048 ![1, 2] bcast_S1x2048_S1x1x2048_1_2 : (⟨S1x2048, .f32⟩ : BufTy).Contents (Elt F) → (⟨S1x1x2048, .f32⟩ : BufTy).Contents (Elt F)) ]

theorem cutG_plain : (cut 83 16 : List (HloOp τ sig (Elt F))) = opsGp := by chain_rfl

theorem readG_v71 (h70 : W (Proc.devRef .tc main_v70) = Read.val_main_v70 (F := F) x0 x1 x2 x3 x4 x5 x6 x7 x8 x9 x10 x11 x12 x13) : after (cut 83 16) W (Proc.devRef .tc main_v71) = Read.val_main_v71 (F := F) x0 x1 x2 x3 x4 x5 x6 x7 x8 x9 x10 x11 x12 x13 := by
  rw [cutG_plain]; dsimp only [opsGp]; after_results_simp; rw [h70]; rfl
theorem readG_v72 (h66 : W (Proc.devRef .tc main_v66) = Read.val_main_v66 (F := F) x0 x1 x2 x3 x4 x5 x6 x7 x8 x9 x10 x11) : after (cut 83 16) W (Proc.devRef .tc main_v72) = Read.val_main_v72 (F := F) x0 x1 x2 x3 x4 x5 x6 x7 x8 x9 x10 x11 := by
  dsimp only [cut, ops, List.take, List.drop]; after_results_simp; rw [h66]; rfl

/-- The stretches chained: a value made in one stretch rides through the later ones, none of which writes it. -/
theorem reads (h : HoldsArgs W x0 x1 x2 x3 x4 x5 x6 x7 x8 x9 x10 x11 x12 x13) :
    after ops W (Proc.devRef .tc main_v71) = Read.val_main_v71 (F := F) x0 x1 x2 x3 x4 x5 x6 x7 x8 x9 x10 x11 x12 x13
    ∧ after ops W (Proc.devRef .tc main_v72) = Read.val_main_v72 (F := F) x0 x1 x2 x3 x4 x5 x6 x7 x8 x9 x10 x11
    ∧ after ops W (Proc.devRef .tc main_v23) = Read.val_main_v23 (F := F) x0 x1 x3 x4 x5
    ∧ HoldsArgs (after ops W) x0 x1 x2 x3 x4 x5 x6 x7 x8 x9 x10 x11 x12 x13 := by
  have hA := h.after writesA (by decide)
  have hB := hA.after writesB (by decide)
  have hC := hB.after writesC (by decide)
  have hD := hC.after writesD (by decide)
  have hE := hD.after writesE (by decide)
  have a6 := readA_v6 W h
  have a7 := readA_v7 W h
  have b6 := (after_of_writes_sub _ _ writesB (r := main_v6) (by decide)).trans a6
  have b7 := (after_of_writes_sub _ _ writesB (r := main_v7) (by decide)).trans a7
  have b23 := readB_v23 _ hA a6 a7
  have b24 := readB_v24 _ hA a6 a7
  have c7 := (after_of_writes_sub _ _ writesC (r := main_v7) (by decide)).trans b7
  have c23 := (after_of_writes_sub _ _ writesC (r := main_v23) (by decide)).trans b23
  have d23 := (after_of_writes_sub _ _ writesD (r := main_v23) (by decide)).trans c23
  have d66 := readD_v66 _ (readC_v34 _ hB b6 b24) (readC_v38 _ hB b7) c7
  have e23 := (after_of_writes_sub _ _ writesE (r := main_v23) (by decide)).trans d23
  have e66 := (after_of_writes_sub _ _ writesE (r := main_v66) (by decide)).trans d66
  rw [ops_split]
  simp only [StableHlo.after_append]
  exact ⟨readG_v71 _ (readE_v70 _ hD d66), readG_v72 _ e66,
    (after_of_writes_sub _ _ writesG (r := main_v23) (by decide)).trans e23, hE.after writesG (by decide)⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = Read.val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v72) = Read.val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v23) = Read.val_main_v23 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => by
      obtain ⟨h71, h72, h23, ha⟩ := reads (launchContents m c) ⟨rfl, rfl, rfl, rfl, rfl, rfl, rfl, rfl, rfl, rfl, rfl, rfl, rfl, rfl⟩
      simp only [h]
      exact ⟨h71, h72, h23, ha.1, ha.2, ha.3, ha.4, ha.5, ha.6, ha.7, ha.8, ha.9, ha.10, ha.11, ha.12, ha.13, ha.14⟩)
    (run_raw m ρ)

end Cert.ReferenceIdeal.RunH

end
-- ==== Proof.PreWord.lean ====
import proofs.«418227_j23983097381305_3_alg».proof.Pre_finite_inputs
import Idealize.ShloMosaic.Lib.Affine
import Idealize.ShloMosaic.Lib.ReduceAll
import Idealize.ShloMosaic.Lib.ValueIdx

noncomputable section

namespace Cert.PreWord

open Idealize.ShloMosaic Idealize.ShloMosaic.ValueIdx
open Cert.Pre_finite_inputs

variable {F : FTy → Type} [FloatOps F] [Cert.Pre_finite_inputs.Facts]

instance subsingleton_scalar_idx : Subsingleton S_.Idx := ⟨fun a b => funext fun d => d.elim0⟩

/-- A word that is non-negative as a signed number reads the same signed and unsigned. -/
theorem toNat_lt_of_signed (w : BitVec 32) (h0 : IntOp.cmpi .sge w 0#32 = 1#1) (h1 : IntOp.cmpi .slt w 50257#32 = 1#1) :
    w.toNat < 50257 := by
  rw [IntOp.cmpi_sge, show (0#32 : BitVec 32).toInt = 0 from by decide] at h0
  rw [IntOp.cmpi_slt, show (50257#32 : BitVec 32).toInt = 50257 from by decide] at h1
  have hn : 2 * w.toNat < 2 ^ 32 := BitVec.toInt_pos_iff.1 h0
  rw [BitVec.toInt_eq_toNat_of_lt hn] at h1
  omega

/-- The two tests of the word are the last two conjuncts of the left-nested conjunction; each is a fold by "and" over the one word. -/
theorem word_lt (x0 : IVec S1 32) (x1 : FVec F S1x1x2048 .f32) (x2 : FVec F S64x2048 .f32) (x3 : FVec F S50257x2048 .f32)
    (x4 : FVec F S64x4096 .f32) (x5 : FVec F S64 .f32) (x6 : FVec F S2048x4096 .f32) (x7 : FVec F S2048 .f32)
    (x8 : FVec F S6144x2048 .f32) (x9 : FVec F S6144x2048 .f32) (x10 : FVec F S6144 .f32) (x11 : FVec F S6144 .f32)
    (x12 : FVec F S50257x2048 .f32) (x13 : FVec F S50257 .f32)
    (h : Cert.Pre_finite_inputs.fn (F := F) x0 x1 x2 x3 x4 x5 x6 x7 x8 x9 x10 x11 x12 x13 = fun _ => 1#1) :
    (x0 (ix1 (0 : Fin 1))).toNat < 50257 := by
  have e := congrFun h ix0
  dsimp only [fn, fn_part1, fn_part2, fn_part3, fn_part4] at e
  obtain ⟨e', elt⟩ := IntOp.andi_eq_one.1 e
  obtain ⟨-, ege⟩ := IntOp.andi_eq_one.1 e'
  exact toNat_lt_of_signed _ (Host.reduce_andi_all _ _ _ _ ix0 ege (ix1 (0 : Fin 1)))
    (Host.reduce_andi_all _ _ _ _ ix0 elt (ix1 (0 : Fin 1)))

end Cert.PreWord

end
-- ==== Proof.ClaimsI.lean ====
import proofs.«418227_j23983097381305_3_alg».proof.Defs
import proofs.«418227_j23983097381305_3_alg».proof.Proof.KernelIdeal.ValI
import proofs.«418227_j23983097381305_3_alg».proof.Proof.RefRun
import proofs.«418227_j23983097381305_3_alg».proof.Proof.PreWord
import proofs.«418227_j23983097381305_3_alg».proof.Proof.Gen.Pre_finite_inputs

set_option maxRecDepth 16384

noncomputable section

namespace Cert.Proof.ClaimsI

open Cert.KernelIdeal Cert.KernelIdeal.Gen Cert.KernelIdeal.Hand
open Idealize.ShloMosaic Idealize.ShloMosaic.TcCoe Idealize.SL.Sem
open Idealize.ShloMosaic.ValueIdx (ix1)
open Cert.ReferenceIdeal.Read

variable (m : (ℓ : Loc nD τ sig) → Buf (Elt Ideal) ℓ) (hpre : Cert.Pre_KernelIdeal m)
include hpre

-- The precondition bounds the word by the number of rows of the embedding matrix.
theorem word_lt : (m (((0 : Dev nD).tc : Thread nD τ).loc main_arg0) (ix1 (0 : Fin 1))).toNat < 50257 :=
  Cert.PreWord.word_lt _ _ _ _ _ _ _ _ _ _ _ _ _ _ (hpre 0)

theorem word_ok : k0_chk1 (tword0 (F := Ideal) (tbl m 0)) := chk_of_lt (tbl m 0) (word_lt m hpre)

-- The idealized kernel's run ends with its three results at the reference's stages of the arguments, every argument as launched.
theorem run_vals (ρ : Dev nD → PrngReg) :
    θ_run Cert.KernelIdeal.defs (onTc (τ := τ) (main (F := Ideal))) ⟨m, fun _ => 0, ρ⟩ (fun r => ∀ c : Dev nD,
      (r.2.mem ((c.tc : Thread nD τ).loc main_v40) = val_main_v71 (F := Ideal) (arg0 m c) (arg1 m c) (arg2 m c) (arg3 m c) (arg4 m c) (arg5 m c) (arg6 m c) (arg7 m c) (arg8 m c) (arg9 m c) (arg10 m c) (arg11 m c) (arg12 m c) (arg13 m c)
        ∧ r.2.mem ((c.tc : Thread nD τ).loc main_v41) = val_main_v72 (F := Ideal) (arg0 m c) (arg1 m c) (arg2 m c) (arg3 m c) (arg4 m c) (arg5 m c) (arg6 m c) (arg7 m c) (arg8 m c) (arg9 m c) (arg10 m c) (arg11 m c)
        ∧ r.2.mem ((c.tc : Thread nD τ).loc main_v2_1) = val_main_v23 (F := Ideal) (arg0 m c) (arg1 m c) (arg3 m c) (arg4 m c) (arg5 m c))
      ∧ ∀ b ∈ argRefs, r.2.mem ((c.tc : Thread nD τ).loc b) = m ((c.tc : Thread nD τ).loc b)) :=
  have hw := word_ok m hpre
  have hlt := word_lt m hpre
  (θ_run Cert.KernelIdeal.defs _ _).mono (fun r h c =>
    ⟨⟨(h c _ (mem_uc main_v40 (by decide))).trans (result_out m hw hlt c),
        (h c _ (mem_uc main_v41 (by decide))).trans (result_hidden m hw hlt c),
        (h c _ (mem_uc main_v2_1 (by decide))).trans (result_attn m hw hlt c)⟩,
      arg_kept m hw c (h c)⟩) (run m hw ρ)

-- The reference's stages depend on the arguments only.
omit hpre in
theorem out_congr {x0 y0 x1 y1 x2 y2 x3 y3 x4 y4 x5 y5 x6 y6 x7 y7 x8 y8 x9 y9 x10 y10 x11 y11 x12 y12 x13 y13} (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (e11 : y11 = x11) (e12 : y12 = x12) (e13 : y13 = x13) :
    val_main_v71 (F := Ideal) y0 y1 y2 y3 y4 y5 y6 y7 y8 y9 y10 y11 y12 y13 = val_main_v71 (F := Ideal) x0 x1 x2 x3 x4 x5 x6 x7 x8 x9 x10 x11 x12 x13 := by
  subst_vars; rfl
omit hpre in
theorem hidden_congr {x0 y0 x1 y1 x2 y2 x3 y3 x4 y4 x5 y5 x6 y6 x7 y7 x8 y8 x9 y9 x10 y10 x11 y11} (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (e11 : y11 = x11) :
    val_main_v72 (F := Ideal) y0 y1 y2 y3 y4 y5 y6 y7 y8 y9 y10 y11 = val_main_v72 (F := Ideal) x0 x1 x2 x3 x4 x5 x6 x7 x8 x9 x10 x11 := by
  subst_vars; rfl
omit hpre in
theorem attn_congr {x0 y0 x1 y1 x3 y3 x4 y4 x5 y5} (e0 : y0 = x0) (e1 : y1 = x1) (e3 : y3 = x3) (e4 : y4 = x4) (e5 : y5 = x5) :
    val_main_v23 (F := Ideal) y0 y1 y3 y4 y5 = val_main_v23 (F := Ideal) x0 x1 x3 x4 x5 := by
  subst_vars; rfl

omit hpre in
theorem frame_pi : Cert.frame_KernelIdeal := fun m ρ hpre =>
  (θ_run Cert.KernelIdeal.defs _ _).mono (fun r h c => have k := (h c).2; ⟨k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide)⟩) (run_vals m hpre ρ)

omit hpre in
theorem frame_ri : Cert.frame_ReferenceIdeal := fun m ρ _ =>
  (θ_run Cert.ReferenceIdeal.defs _ _).mono (fun _ h c => (h c).2.2.2) (Cert.ReferenceIdeal.RunH.run m ρ)

omit hpre in
-- Both runs end at the reference's stages, the kernel's of its own arguments and the reference's of arguments that agree with them.
theorem algebraic : Cert.algebraic_KernelIdeal_ReferenceIdeal := by
  intro m ρ m' ρ' hpre hagree
  refine ⟨fun c => val_main_v71 (F := Ideal) (arg0 m c) (arg1 m c) (arg2 m c) (arg3 m c) (arg4 m c) (arg5 m c) (arg6 m c) (arg7 m c) (arg8 m c) (arg9 m c) (arg10 m c) (arg11 m c) (arg12 m c) (arg13 m c),
    fun c => val_main_v72 (F := Ideal) (arg0 m c) (arg1 m c) (arg2 m c) (arg3 m c) (arg4 m c) (arg5 m c) (arg6 m c) (arg7 m c) (arg8 m c) (arg9 m c) (arg10 m c) (arg11 m c),
    fun c => val_main_v23 (F := Ideal) (arg0 m c) (arg1 m c) (arg3 m c) (arg4 m c) (arg5 m c), ?_, ?_⟩
  · exact (θ_run Cert.KernelIdeal.defs _ _).mono (fun r h c => have k := (h c).2;
      ⟨(h c).1.1, (h c).1.2.1, (h c).1.2.2, k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide)⟩) (run_vals m hpre ρ)
  · refine (θ_run Cert.ReferenceIdeal.defs _ _).mono (fun r h c => ?_) (Cert.ReferenceIdeal.RunH.run m' ρ')
    obtain ⟨e0, e1, e2, e3, e4, e5, e6, e7, e8, e9, e10, e11, e12, e13⟩ := hagree c
    obtain ⟨h71, h72, h23, hargs⟩ := h c
    exact ⟨h71.trans (out_congr e0 e1 e2 e3 e4 e5 e6 e7 e8 e9 e10 e11 e12 e13), h72.trans (hidden_congr e0 e1 e2 e3 e4 e5 e6 e7 e8 e9 e10 e11),
      h23.trans (attn_congr e0 e1 e3 e4 e5), hargs⟩

end Cert.Proof.ClaimsI

end
-- ==== Proof.Kernel.R0.lean ====
import proofs.«418227_j23983097381305_3_alg».proof.Proof.Gen.Kernel.Launch
import proofs.«418227_j23983097381305_3_alg».proof.Proof.Gen.Kernel.Skeleton
import proofs.«418227_j23983097381305_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (a : (pcfg0 (F := F)).Adm)

def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

theorem before0_0_of {c : Dev nD} (dat : Dat τ (Elt F) Unit ℕ (Pipeline.UD sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ (cfg0 a) c) (hA : dat.A 2 = V c (Pipeline.arrRef spec0 2))
    (hafter : ∀ t, dat.after 2 t = iblk0 V a c 2 t) (t : Fin (cfg0 a).N) (d) : dat.before 2 t d = iblk0 V a c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ (cfg0 a) c) (hA : dat.A 3 = V c (Pipeline.arrRef spec0 3))
    (hafter : ∀ t, dat.after 3 t = iblk0 V a c 3 t) (t : Fin (cfg0 a).N) (d) : dat.before 3 t d = iblk0 V a c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev tbM0 : Memref sig .tc .smem S1 .i32 := Memref.whole main_arg0
abbrev htbM0 : tbM0.IsWhole := Memref.isWhole_whole _
abbrev hbM0 : Memref sig .tc .hbm S50257x2048 .f32 := Memref.whole main_arg3
abbrev hhbM0 : hbM0.IsWhole := Memref.isWhole_whole _

abbrev MBuf0 (c : Dev nD) {sp : Space} {S : Shape} {e : EltTy} (M : Memref sig .tc sp S e) : Type := Buf (Elt F) (M.view.loc (c : Thread nD τ))
abbrev mPt0 (c : Dev nD) {sp : Space} {S : Shape} {e : EltTy} (M : Memref sig .tc sp S e) (f : MBuf0 (F := F) c M) : sProp 𝕄 :=
  M.view.loc (c : Thread nD τ) ↦{fullShare} f

abbrev tword0 (xt : tbM0.view.ty.Contents (Elt F)) : Elt F .i32 :=
  tbM0.view.readAt (Elt F) (Rect.unit (s := S1) ![0] S1.size inb_S1_S1_0).toLoadRect xt (Shape.Idx.first (numel1_S1.symm ▸ Nat.one_pos))

abbrev osem0 : Fin 1 → SemLoc sig := fun j => (![SemLoc.dma 7] : Fin 1 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0) := by
  rw [Pipeline.ownSems0_eq_of_list c osem0 [0] (by decide) (by decide)]; rfl

def H0 : Finset (Ref sig .tc) := {main_arg3}
theorem H0_sub : H0 ⊆ Pipeline.restRefsP sig pre0 spec0 := by decide

theorem hbmPts0_eq (c : Dev nD) :
    (bigSep H0 (fun b => ((c : Thread nD τ).loc b) ↦{fullShare} V c b) : sProp 𝕄) = iprop(mPt0 c hbM0 (V c main_arg3)) := by
  rw [BI.bigSep_eq_bigSepL_of_eq [main_arg3] (by decide) (by decide)]; rfl

theorem prefHeld0_eq (c : Dev nD) (v : pre0.Contents (Elt F)) :
    (Pipeline.prefHeld (Ix := Unit) (Name := ℕ) (U := Pipeline.UD sig nD τ) (Lvl := ℕ) pre0 c (fun _ => fullShare) v : sProp 𝕄)
      = iprop(mPt0 c tbM0 (v 0)) := by
  unfold Pipeline.prefHeld
  rw [show (Finset.univ : Finset (Fin 1)) = {(0 : Fin 1)} from by decide, bigSep_singleton]
  rfl

def Φ0 (c : Dev nD) : sProp 𝕄 :=
  iprop(Pipeline.ΦD osem0 spec0 H0 V c ∗ Pipeline.prefHeld pre0 c (fun _ => fullShare) a.1)

theorem Phi0_eq (c : Dev nD) :
    (Φ0 V a c : sProp 𝕄)
      = iprop(iprop(Pipeline.scopedRest (Ix := Unit) (Name := ℕ) (U := Pipeline.UD sig nD τ) (Lvl := ℕ) (Val := Elt F) spec0 c ∗ (∃ r, prngReg c r)
          ∗ iprop(semVal ((c : Thread nD τ), SemLoc.dma 7) 0) ∗ iprop(mPt0 c hbM0 (V c main_arg3))) ∗ iprop(mPt0 c tbM0 (a.1 0))) := by
  unfold Φ0
  rw [Pipeline.ΦD_eq, ownSems00_eq, hbmPts0_eq, prefHeld0_eq]

abbrev r0_h : Rect S1x2048 := Rect.unit (s := S1x2048) ![0, 0] S1x2048.size inb_S1x2048_S1x2048_0_0
abbrev r0_w : Rect S64x4096 := Rect.unit (s := S64x4096) ![0, 0] S64x4096.size inb_S64x4096_S64x4096_0_0
abbrev r0_b : Rect S1x64 := Rect.unit (s := S1x64) ![0, 0] S1x64.size inb_S1x64_S1x64_0_0
abbrev r0_e : Rect S64x2048 := Rect.unit (s := S64x2048) ![0, 0] S64x2048.size inb_S64x2048_S64x2048_0_0

def emb_row0 (fh : hbM0.view.ty.Contents (Elt F)) (w : Elt F .i32) (hw : k0_chk1 w) : Vec F S1x2048 .f32 :=
  View.ld (hbM0.view.read (Elt F) fh) (Rect.unit (s := S50257x2048) (k0_off1 w) S1x2048.size (k0_off1_inb w hw))

def att0 (x4 : Vec F S1x2048 .f32) (x0 : Vec F S1x2048 .f32) (x1 : Vec F S64x4096 .f32) (x2 : Vec F S1x64 .f32) : Vec F S1x64 .f32 :=
  k0_pay2 (View.ld x4 r0_h) (View.ld x0 r0_h) (View.ld x1 r0_w) (View.ld x2 r0_b)

def out0_5 (x4 : Vec F S1x2048 .f32) (x0 : Vec F S1x2048 .f32) (x1 : Vec F S64x4096 .f32) (x2 : Vec F S1x64 .f32) : Vec F S1x64 .f32 :=
  View.canon [⟨r0_b, att0 x4 x0 x1 x2⟩]

def out0_6 (x4 : Vec F S1x2048 .f32) (x0 : Vec F S1x2048 .f32) (x1 : Vec F S64x4096 .f32) (x2 : Vec F S1x64 .f32) (x3 : Vec F S64x2048 .f32) : Vec F S1x2048 .f32 :=
  View.canon [⟨r0_h, k0_pay1 (att0 x4 x0 x1 x2) (View.ld x3 r0_e)⟩]

theorem read_write_squeezed {sig' : RefSig} {κ : Kind} {sp : Space} {s s' : Shape} {e : EltTy} {Val : EltTy → Type}
    (M : Memref sig' κ sp s e) {off : Fin s.rank → Nat} (hoff : off = fun _ => 0) (inb : ∀ a, off a + s.size a ≤ s.size a)
    (hr : ∀ a, (Rect.unit off s.size inb).stride a = 1) (hq : (Rect.unit off s.size inb).shape.Squeezes s')
    (f : M.view.ty.Contents Val) (p : s'.Idx → Val e) (y : s.Idx) :
    M.view.read Val (View.write Val ((M.slice (Rect.unit off s.size inb) hr).squeeze s' hq).view f p Finset.univ) y
      = p ((Shape.reshapeEquiv hq.numel_eq).symm y) := by
  subst hoff
  have e1 : M.view.emb y = ((M.slice (Rect.unit (fun _ => 0) s.size inb) hr).squeeze s' hq).view.emb ((Shape.reshapeEquiv hq.numel_eq).symm y) := by
    show M.view.emb y = M.view.emb ((Rect.whole s).emb (Shape.reshapeEquiv hq.numel_eq ((Shape.reshapeEquiv hq.numel_eq).symm y)))
    rw [Equiv.apply_symm_apply, Rect.emb_whole_apply]
  rw [View.read_apply, e1, View.write_emb_of_mem _ _ (Finset.mem_univ _), cast_cast, cast_eq]

theorem hoff2 : (![0, 0] : Fin S1x2048.rank → Nat) = fun _ => 0 := by
  funext a; fin_cases a <;> rfl

theorem emb_read0 (M : Memref sig .tc .vmem S1x2048 .f32) (hr : ∀ a, r0_h.stride a = 1) (f4 : M.view.ty.Contents (Elt F))
    (fh : hbM0.view.ty.Contents (Elt F)) (w : Elt F .i32) (hw : k0_chk1 w)
    (hr' : ∀ a, (Rect.unit (s := S50257x2048) (k0_off1 w) S1x2048.size (k0_off1_inb w hw)).stride a = 1) :
    M.view.read (Elt F) (View.write (Elt F) ((M.slice r0_h hr).squeeze S2048 squeezes_S1x2048_S2048).view f4
        (ReadAs.same.apply (View.read (Elt F)
          ((hbM0.slice (Rect.unit (s := S50257x2048) (k0_off1 w) S1x2048.size (k0_off1_inb w hw)) hr').squeeze S2048 squeezes_S1x2048_S2048).view fh))
        Finset.univ)
      = emb_row0 fh w hw := by
  funext y
  refine (read_write_squeezed M (off := ![0, 0]) hoff2 inb_S1x2048_S1x2048_0_0 hr squeezes_S1x2048_S2048 f4 _ y).trans ?_
  show hbM0.view.read (Elt F) fh ((Rect.unit (s := S50257x2048) (k0_off1 w) S1x2048.size (k0_off1_inb w hw)).emb
      (Shape.reshapeEquiv squeezes_S1x2048_S2048.numel_eq ((Shape.reshapeEquiv squeezes_S1x2048_S2048.numel_eq).symm y))) = _
  rw [Equiv.apply_symm_apply]; rfl

theorem cover0_5 (p0 : Vec F S1x64 .f32) (y : S1x64.Idx) :
    ∃ pc ∈ ([⟨r0_b, p0⟩] : List (View.Piece (Elt F) S1x64 .f32)), y ∈ pc.1.set :=
  View.cover_of_tiled [⟨r0_b, p0⟩] S1x64.size (by rfl) y
theorem cover0_6 (p0 : Vec F S1x2048 .f32) (y : S1x2048.Idx) :
    ∃ pc ∈ ([⟨r0_h, p0⟩] : List (View.Piece (Elt F) S1x2048 .f32)), y ∈ pc.1.set :=
  View.cover_of_tiled [⟨r0_h, p0⟩] S1x2048.size (by rfl) y

set_option maxHeartbeats 4000000 in

theorem sound_kernel0 (c : Dev nD) (i : grid0.Coords)
    (arg2 : Memref sig .tc .vmem S1x2048 .f32) (harg2 : arg2.IsWhole)
    (arg4 : Memref sig .tc .vmem S64x4096 .f32) (harg4 : arg4.IsWhole) (arg5 : Memref sig .tc .vmem S1x64 .f32) (harg5 : arg5.IsWhole)
    (arg6 : Memref sig .tc .vmem S64x2048 .f32) (harg6 : arg6.IsWhole) (arg7 : Memref sig .tc .vmem S1x2048 .f32) (harg7 : arg7.IsWhole)
    (arg8 : Memref sig .tc .vmem S1x64 .f32) (harg8 : arg8.IsWhole) (arg9 : Memref sig .tc .vmem S1x2048 .f32) (harg9 : arg9.IsWhole)
    (x0 : Vec F S1x2048 .f32) (x1 : Vec F S64x4096 .f32) (x2 : Vec F S1x64 .f32) (x3 : Vec F S64x2048 .f32)
    (fh : MBuf0 (F := F) c hbM0) (xt : MBuf0 (F := F) c tbM0) (hw : k0_chk1 (tword0 xt)) (W : Waits sig Unit) (K : PUnit → sProp 𝕄) :
    iprop(owns (c : Thread nD τ) arg2 fullShare x0 ∗ owns (c : Thread nD τ) arg4 fullShare x1 ∗ owns (c : Thread nD τ) arg5 fullShare x2
        ∗ owns (c : Thread nD τ) arg6 fullShare x3
        ∗ (∃ d, owns (c : Thread nD τ) arg7 fullShare d) ∗ (∃ d, owns (c : Thread nD τ) arg8 fullShare d) ∗ (∃ d, owns (c : Thread nD τ) arg9 fullShare d)
        ∗ semVal ((c : Thread nD τ), SemLoc.dma 7) 0 ∗ mPt0 c hbM0 fh ∗ mPt0 c tbM0 xt ∗ owes (c : Thread nD τ) 0 W
        ∗ (iprop(owns (c : Thread nD τ) arg2 fullShare x0 ∗ owns (c : Thread nD τ) arg4 fullShare x1 ∗ owns (c : Thread nD τ) arg5 fullShare x2
            ∗ owns (c : Thread nD τ) arg6 fullShare x3
            ∗ owns (c : Thread nD τ) arg7 fullShare (emb_row0 fh (tword0 xt) hw)
            ∗ owns (c : Thread nD τ) arg8 fullShare (out0_5 (emb_row0 fh (tword0 xt) hw) x0 x1 x2)
            ∗ owns (c : Thread nD τ) arg9 fullShare (out0_6 (emb_row0 fh (tword0 xt) hw) x0 x1 x2 x3)
            ∗ semVal ((c : Thread nD τ), SemLoc.dma 7) 0 ∗ mPt0 c hbM0 fh ∗ mPt0 c tbM0 xt ∗ (∃ W', owes (c : Thread nD τ) 0 W')) -∗ K ⟨⟩))
      ⊢ wp frame (wpE (defs₀ (F := F)) Variants.none c none) Set.univ
          (cc0__frontend_kernel i tbM0 htbM0 arg2 harg2 hbM0 hhbM0 arg4 harg4 arg5 harg5 arg6 harg6 arg7 harg7 arg8 harg8 arg9 harg9 cc0_scratch0) K := by
  simp only [cc0__frontend_kernel_eq_skeleton]; unfold cc0__frontend_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hq, Hh, Ht, HW, Hk⟩
  subst hf0; subst hf1; subst hf2; subst hf3
  sl_exec (disch := first | sl_exact hw)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact emb_read0 arg7 _ f4 fh _ hw _
  isplitl [H5]
  · iexists _; isplitr
    swap; · iexact H5
    ipureintro
    refine (View.read_writes_eq_canon _ _ _ (cover0_5 _)).trans ?_
    unfold out0_5 att0
    rw [← emb_read0 arg7 _ f4 fh _ hw _]
    rfl
  isplitl [H6]
  · iexists _; isplitr
    swap; · iexact H6
    ipureintro
    refine (View.read_writes_eq_canon _ _ _ (cover0_6 _)).trans ?_
    unfold out0_6 att0
    rw [← emb_read0 arg7 _ f4 fh _ hw _]
    rfl
  isplitl [Hq]; · iexact Hq
  isplitl [Hh]; · iexact Hh
  isplitl [Ht]; · iexact Ht
  iexists _; iexact HW

variable (hw : k0_chk1 (tword0 (F := F) (a.1 0)))

abbrev erow0 (c : Dev nD) : Vec F S1x2048 .f32 := emb_row0 (V c main_arg3) (tword0 (a.1 0)) hw

def dat0 (c : Dev nD) : Dat τ (Elt F) Unit ℕ (Pipeline.UD sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => erow0 V a hw c
    | ⟨5, _⟩ => out0_5 (erow0 V a hw c) (iblk0 V a c 0 t) (iblk0 V a c 1 t) (iblk0 V a c 2 t)
    | ⟨6, _⟩ => out0_6 (erow0 V a hw c) (iblk0 V a c 0 t) (iblk0 V a c 1 t) (iblk0 V a c 2 t) (iblk0 V a c 3 t)
  Φ _ := Φ0 V a c
  q _ := fullShare
  owed _ := 0

theorem A_eq0 (c : Dev nD) (w : Fin (cfg0 a).W) : (dat0 V a hw c).A w = V c (Pipeline.arrRef spec0 w) := by
  dsimp only [dat0]

theorem after0_0 (c : Dev nD) (t : Fin (cfg0 a).N) : (dat0 V a hw c).after 0 t = iblk0 V a c 0 t := by dsimp only [dat0]; try rfl
theorem after0_1 (c : Dev nD) (t : Fin (cfg0 a).N) : (dat0 V a hw c).after 1 t = iblk0 V a c 1 t := by dsimp only [dat0]; try rfl
theorem after0_2 (c : Dev nD) (t : Fin (cfg0 a).N) : (dat0 V a hw c).after 2 t = iblk0 V a c 2 t := by dsimp only [dat0]; try rfl
theorem after0_3 (c : Dev nD) (t : Fin (cfg0 a).N) : (dat0 V a hw c).after 3 t = iblk0 V a c 3 t := by dsimp only [dat0]; try rfl
theorem after0_4 (c : Dev nD) (t : Fin (cfg0 a).N) : (dat0 V a hw c).after 4 t = erow0 V a hw c := by dsimp only [dat0]; try rfl
theorem after0_5 (c : Dev nD) (t : Fin (cfg0 a).N) :
    (dat0 V a hw c).after 5 t = out0_5 (erow0 V a hw c) (iblk0 V a c 0 t) (iblk0 V a c 1 t) (iblk0 V a c 2 t) := by dsimp only [dat0]; try rfl
theorem after0_6 (c : Dev nD) (t : Fin (cfg0 a).N) :
    (dat0 V a hw c).after 6 t = out0_6 (erow0 V a hw c) (iblk0 V a c 0 t) (iblk0 V a c 1 t) (iblk0 V a c 2 t) (iblk0 V a c 3 t) := by dsimp only [dat0]; try rfl

theorem before0_0 (c : Dev nD) (t : Fin (cfg0 a).N) (d) : (dat0 V a hw c).before 0 t d = iblk0 V a c 0 t :=
  before0_0_of V a (dat0 V a hw c) (A_eq0 V a hw c 0) (after0_0 V a hw c) t d
theorem before0_1 (c : Dev nD) (t : Fin (cfg0 a).N) (d) : (dat0 V a hw c).before 1 t d = iblk0 V a c 1 t :=
  before0_1_of V a (dat0 V a hw c) (A_eq0 V a hw c 1) (after0_1 V a hw c) t d
theorem before0_2 (c : Dev nD) (t : Fin (cfg0 a).N) (d) : (dat0 V a hw c).before 2 t d = iblk0 V a c 2 t :=
  before0_2_of V a (dat0 V a hw c) (A_eq0 V a hw c 2) (after0_2 V a hw c) t d
theorem before0_3 (c : Dev nD) (t : Fin (cfg0 a).N) (d) : (dat0 V a hw c).before 3 t d = iblk0 V a c 3 t :=
  before0_3_of V a (dat0 V a hw c) (A_eq0 V a hw c 3) (after0_3 V a hw c) t d

abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)
abbrev st0_3 (t : Fin (cfg0 a).N) := ((cfg0 a).win 3).stage ((cfg0 a).slots t 3)
abbrev st0_4 (t : Fin (cfg0 a).N) := ((cfg0 a).win 4).stage ((cfg0 a).slots t 4)
abbrev st0_5 (t : Fin (cfg0 a).N) := ((cfg0 a).win 5).stage ((cfg0 a).slots t 5)
abbrev st0_6 (t : Fin (cfg0 a).N) := ((cfg0 a).win 6).stage ((cfg0 a).slots t 6)

abbrev bodyAt0 (t : Fin (cfg0 a).N) : Prog (TpuEff nD τ sig (Elt F) Λ₀ .tc) PUnit :=
  cc0__frontend_kernel (grid0.coords t) (Memref.whole main_arg0) (Memref.isWhole_whole _) (spec0_0.stage ((cfg0 a).slots t 0)) (hstage0_0 (((cfg0 a).slots t 0).cast nbuf0_0)) (Memref.whole main_arg3) (Memref.isWhole_whole _) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) cc0_scratch0

def bodyPre0 (c : Dev nD) (t : Fin (cfg0 a).N) : sProp 𝕄 :=
  iprop((dat0 V a hw c).Φ t.castSucc ∗ (dat0 V a hw c).owesAt () t.castSucc
    ∗ (∃ d, owns (c : Thread nD τ) (st0_0 a t) fullShare ((dat0 V a hw c).before 0 t d))
    ∗ (∃ d, owns (c : Thread nD τ) (st0_1 a t) fullShare ((dat0 V a hw c).before 1 t d))
    ∗ (∃ d, owns (c : Thread nD τ) (st0_2 a t) fullShare ((dat0 V a hw c).before 2 t d))
    ∗ (∃ d, owns (c : Thread nD τ) (st0_3 a t) fullShare ((dat0 V a hw c).before 3 t d))
    ∗ (∃ d, owns (c : Thread nD τ) (st0_4 a t) fullShare ((dat0 V a hw c).before 4 t d))
    ∗ (∃ d, owns (c : Thread nD τ) (st0_5 a t) fullShare ((dat0 V a hw c).before 5 t d))
    ∗ (∃ d, owns (c : Thread nD τ) (st0_6 a t) fullShare ((dat0 V a hw c).before 6 t d)))

def bodyPost0 (c : Dev nD) (t : Fin (cfg0 a).N) : sProp 𝕄 :=
  iprop((dat0 V a hw c).Φ t.succ ∗ (dat0 V a hw c).owesAt () t.succ
    ∗ owns (c : Thread nD τ) (st0_0 a t) fullShare ((dat0 V a hw c).after 0 t)
    ∗ owns (c : Thread nD τ) (st0_1 a t) fullShare ((dat0 V a hw c).after 1 t)
    ∗ owns (c : Thread nD τ) (st0_2 a t) fullShare ((dat0 V a hw c).after 2 t)
    ∗ owns (c : Thread nD τ) (st0_3 a t) fullShare ((dat0 V a hw c).after 3 t)
    ∗ owns (c : Thread nD τ) (st0_4 a t) fullShare ((dat0 V a hw c).after 4 t)
    ∗ owns (c : Thread nD τ) (st0_5 a t) fullShare ((dat0 V a hw c).after 5 t)
    ∗ owns (c : Thread nD τ) (st0_6 a t) fullShare ((dat0 V a hw c).after 6 t))

theorem sound_body0 (c : Dev nD) (t : Fin (cfg0 a).N) :
    bodyPre0 V a hw c t ⊢ wp frame (wpE (defs₀ (F := F)) Variants.none c none) Set.univ (bodyAt0 a t) (fun _ => bodyPost0 V a hw c t) := by
  unfold bodyPre0 bodyPost0 bodyAt0
  simp only [before0_0, before0_1, before0_2, before0_3]
  rw [show (dat0 V a hw c).Φ t.succ = (dat0 V a hw c).Φ t.castSucc from rfl,
    after0_0, after0_1, after0_2, after0_3, after0_4, after0_5, after0_6]
  rw [show (dat0 V a hw c).Φ t.castSucc = Φ0 V a c from rfl, Phi0_eq]
  unfold Dat.owesAt Pipeline.owesWithin
  rw [show (dat0 V a hw c).owed t.castSucc = 0 from rfl, show (dat0 V a hw c).owed t.succ = 0 from rfl]
  iintro ⟨⟨⟨HR, Hg, Hq, Hh⟩, Ht⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (sound_kernel0 c (grid0.coords t) _ _ _ _ _ _ _ _ _ _ _ _ _ _ (iblk0 V a c 0 t) (iblk0 V a c 1 t) (iblk0 V a c 2 t) (iblk0 V a c 3 t)
    (V c main_arg3) (a.1 0) hw W _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [Hq]; · iexact Hq
  isplitl [Hh]; · iexact Hh
  isplitl [Ht]; · iexact Ht
  isplitl [HW]; · iexact HW
  iintro ⟨H0, H1, H2, H3, H4, H5, H6, Hq, Hh, Ht, ⟨%W', HW'⟩⟩
  isplitl [HR Hg Hq Hh Ht]
  · isplitl [HR Hg Hq Hh]
    · isplitl [HR]; · iexact HR
      isplitl [Hg]; · iexact Hg
      isplitl [Hq]; · iexact Hq
      iexact Hh
    iexact Ht
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V a hw c) (defs₀ (F := F)) Variants.none () Set.univ := fun t => by
  rw [bigSep_W0, bigSep_W0]
  exact sound_body0 V a hw c t

theorem tword0_eq (xt : tbM0.view.ty.Contents (Elt F)) (j : S1.Idx) : tword0 xt = tbM0.view.read (Elt F) xt j := by
  show tbM0.view.read (Elt F) xt _ = tbM0.view.read (Elt F) xt j
  congr 1
  funext d; apply Fin.ext
  have hs : S1.size d = 1 := by match d with | ⟨0, _⟩ => rfl
  have h1 := (j d).isLt
  have h2 := ((Rect.unit (s := S1) ![0] S1.size inb_S1_S1_0).toLoadRect.idx (Shape.Idx.first (numel1_S1.symm ▸ Nat.one_pos)) d).isLt
  omega

theorem emb_row0_apply (fh : hbM0.view.ty.Contents (Elt F)) (w : Elt F .i32) (hw : k0_chk1 w) (y : S1x2048.Idx) (k : S50257x2048.Idx)
    (h0 : (k 0).val = w.toNat) (h1 : (k 1).val = (y 1).val) :
    emb_row0 fh w hw y = hbM0.view.read (Elt F) fh k := by
  unfold emb_row0
  show hbM0.view.read (Elt F) fh ((Rect.unit (s := S50257x2048) (k0_off1 w) S1x2048.size (k0_off1_inb w hw)).emb y) = _
  congr 1
  have hy0 : (y 0).val = 0 := by
    have := (y 0).isLt
    have hs : S1x2048.size 0 = 1 := rfl
    omega
  refine Shape.idx_ext₂ ?_ ?_
  · rw [Rect.emb_apply, h0]; show w.toNat + 1 * (y 0).val = _; omega
  · rw [Rect.emb_apply, h1]; show 0 + 1 * (y 1).val = _; omega

theorem hoffb : (![0, 0] : Fin S1x64.rank → Nat) = fun _ => 0 := by
  funext a; fin_cases a <;> rfl
theorem hoffw : (![0, 0] : Fin S64x4096.rank → Nat) = fun _ => 0 := by
  funext a; fin_cases a <;> rfl
theorem hoffe : (![0, 0] : Fin S64x2048.rank → Nat) = fun _ => 0 := by
  funext a; fin_cases a <;> rfl

theorem att0_eq (x4 : Vec F S1x2048 .f32) (x0 : Vec F S1x2048 .f32) (x1 : Vec F S64x4096 .f32) (x2 : Vec F S1x64 .f32) :
    att0 x4 x0 x1 x2 = k0_pay2 x4 x0 x1 x2 := by
  unfold att0
  rw [View.ld_unit_zero hoff2 inb_S1x2048_S1x2048_0_0 x4, View.ld_unit_zero hoff2 inb_S1x2048_S1x2048_0_0 x0,
    View.ld_unit_zero hoffw inb_S64x4096_S64x4096_0_0 x1, View.ld_unit_zero hoffb inb_S1x64_S1x64_0_0 x2]
theorem out0_5_eq (x4 : Vec F S1x2048 .f32) (x0 : Vec F S1x2048 .f32) (x1 : Vec F S64x4096 .f32) (x2 : Vec F S1x64 .f32) :
    out0_5 x4 x0 x1 x2 = k0_pay2 x4 x0 x1 x2 := by
  unfold out0_5
  rw [View.canon_unit_zero hoffb inb_S1x64_S1x64_0_0, att0_eq]
theorem out0_6_eq (x4 : Vec F S1x2048 .f32) (x0 : Vec F S1x2048 .f32) (x1 : Vec F S64x4096 .f32) (x2 : Vec F S1x64 .f32) (x3 : Vec F S64x2048 .f32) :
    out0_6 x4 x0 x1 x2 x3 = k0_pay1 (out0_5 x4 x0 x1 x2) x3 := by
  unfold out0_6
  rw [View.canon_unit_zero hoff2 inb_S1x2048_S1x2048_0_0, out0_5_eq, att0_eq, View.ld_unit_zero hoffe inb_S64x2048_S64x2048_0_0 x3]

theorem after0_5_eq (c : Dev nD) (t : Fin (cfg0 a).N) :
    (dat0 V a hw c).after 5 t = k0_pay2 ((dat0 V a hw c).after 4 t) (iblk0 V a c 0 t) (iblk0 V a c 1 t) (iblk0 V a c 2 t) := by
  rw [after0_5, after0_4]; exact out0_5_eq _ _ _ _
theorem after0_6_eq (c : Dev nD) (t : Fin (cfg0 a).N) :
    (dat0 V a hw c).after 6 t = k0_pay1 ((dat0 V a hw c).after 5 t) (iblk0 V a c 3 t) := by
  rw [after0_6, after0_5]; exact out0_6_eq _ _ _ _ _

end Cert.Kernel.Hand

end
-- ==== Proof.Kernel.R1.lean ====
import proofs.«418227_j23983097381305_3_alg».proof.Proof.Gen.Kernel.Launch
import proofs.«418227_j23983097381305_3_alg».proof.Proof.Gen.Kernel.Skeleton
import proofs.«418227_j23983097381305_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S1x4096 := Rect.unit (s := S1x4096) ![0, 0] S1x4096.size inb_S1x4096_S1x4096_0_0
abbrev r1_w : Rect S512x4096 := Rect.unit (s := S512x4096) ![0, 0] S512x4096.size inb_S512x4096_S512x4096_0_0
abbrev r1_b : Rect S1x512 := Rect.unit (s := S1x512) ![0, 0] S1x512.size inb_S1x512_S1x512_0_0

def out1_3 (x0 : Vec F S1x4096 .f32) (x1 : Vec F S512x4096 .f32) (x2 : Vec F S1x512 .f32) : Vec F S1x512 .f32 :=
  View.canon [⟨r1_b, k1_pay1 (View.ld x0 r1_x) (View.ld x1 r1_w) (View.ld x2 r1_b)⟩]

theorem cover1_3 (p0 : Vec F S1x512 .f32) (y : S1x512.Idx) :
    ∃ pc ∈ ([⟨r1_b, p0⟩] : List (View.Piece (Elt F) S1x512 .f32)), y ∈ pc.1.set :=
  View.cover_of_tiled [⟨r1_b, p0⟩] S1x512.size (by rfl) y

set_option maxHeartbeats 1000000 in

theorem sound_kernel1 (c : Dev nD) (E : Set ℕ) (i : grid1.Coords) (arg1 : Memref sig .tc .vmem S1x4096 .f32) (harg1 : arg1.IsWhole)
    (arg2 : Memref sig .tc .vmem S512x4096 .f32) (harg2 : arg2.IsWhole) (arg3 : Memref sig .tc .vmem S1x512 .f32) (harg3 : arg3.IsWhole)
    (arg4 : Memref sig .tc .vmem S1x512 .f32) (harg4 : arg4.IsWhole)
    (x0 : Vec F S1x4096 .f32) (x1 : Vec F S512x4096 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.R2.lean ====
import proofs.«418227_j23983097381305_3_alg».proof.Proof.Gen.Kernel.Launch
import proofs.«418227_j23983097381305_3_alg».proof.Proof.Gen.Kernel.Skeleton
import proofs.«418227_j23983097381305_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S1x2048 := Rect.unit (s := S1x2048) ![0, 0] S1x2048.size inb_S1x2048_S1x2048_0_0
abbrev r2_w : Rect S512x2048 := Rect.unit (s := S512x2048) ![0, 0] S512x2048.size inb_S512x2048_S512x2048_0_0
abbrev r2_b : Rect S1x512 := Rect.unit (s := S1x512) ![0, 0] S1x512.size inb_S1x512_S1x512_0_0

def out2_6 (x0 : Vec F S1x2048 .f32) (x2 : Vec F S512x2048 .f32) (x4 : Vec F S1x512 .f32) : Vec F S1x512 .f32 :=
  View.canon [⟨r2_b, k2_pay1 (View.ld x0 r2_x) (View.ld x2 r2_w) (View.ld x4 r2_b)⟩]

def out2_7 (x1 : Vec F S1x2048 .f32) (x3 : Vec F S512x2048 .f32) (x5 : Vec F S1x512 .f32) : Vec F S1x512 .f32 :=
  View.canon [⟨r2_b, k2_pay2 (View.ld x1 r2_x) (View.ld x3 r2_w) (View.ld x5 r2_b)⟩]

theorem cover2_o (p0 : Vec F S1x512 .f32) (y : S1x512.Idx) :
    ∃ pc ∈ ([⟨r2_b, p0⟩] : List (View.Piece (Elt F) S1x512 .f32)), y ∈ pc.1.set :=
  View.cover_of_tiled [⟨r2_b, p0⟩] S1x512.size (by rfl) y

set_option maxHeartbeats 1000000 in

theorem sound_kernel2 (c : Dev nD) (E : Set ℕ) (i : grid2.Coords)
    (arg1 : Memref sig .tc .vmem S1x2048 .f32) (harg1 : arg1.IsWhole) (arg2 : Memref sig .tc .vmem S1x2048 .f32) (harg2 : arg2.IsWhole)
    (arg3 : Memref sig .tc .vmem S512x2048 .f32) (harg3 : arg3.IsWhole) (arg4 : Memref sig .tc .vmem S512x2048 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole)
    (x0 x1 : Vec F S1x2048 .f32) (x2 x3 : Vec F S512x2048 .f32) (x4 x5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x2 x4) ∗ owns (c : Thread nD τ) arg8 fullShare (out2_7 x1 x3 x5)) -∗ K ⟨⟩))
      ⊢ wp frame (wpE (defs₀ (F := F)) Variants.none c none) E
          (cc2__gru_gates_kernel i arg1 harg1 arg2 harg2 arg3 harg3 arg4 harg4 arg5 harg5 arg6 harg6 arg7 harg7 arg8 harg8) K := by
  simp only [cc2__gru_gates_kernel_eq_skeleton]; unfold cc2__gru_gates_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_o _)
  iexists _; isplitr
  swap; · iexact H7
  ipureintro
  exact View.read_writes_eq_canon _ _ _ (cover2_o _)

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 2 t) (iblk2 V c 4 t)
    | ⟨7, _⟩ => out2_7 (iblk2 V c 1 t) (iblk2 V c 3 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 2 t) (iblk2 V c 4 t) := by dsimp only [dat2]
theorem after2_7 (c : Dev nD) (t : Fin cfg2.N) :
    (dat2 V c).after 7 t = out2_7 (iblk2 V c 1 t) (iblk2 V c 3 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.R3F.lean ====
import proofs.«418227_j23983097381305_3_alg».proof.Proof.Gen.Kernel.Launch
import proofs.«418227_j23983097381305_3_alg».proof.Proof.Gen.Kernel.Skeleton
import proofs.«418227_j23983097381305_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxHeartbeats 1000000 in

theorem sound_kernel3F (c : Dev nD) (E : Set ℕ) (i : grid3.Coords) (arg1 : Memref sig .tc .vmem S1x2048 .f32) (harg1 : arg1.IsWhole)
    (arg2 : Memref sig .tc .vmem S1536x2048 .f32) (harg2 : arg2.IsWhole) (arg3 : Memref sig .tc .vmem S1x1536 .f32) (harg3 : arg3.IsWhole)
    (arg4 : Memref sig .tc .vmem S1x1536 .f32) (harg4 : arg4.IsWhole)
    (x0 : Vec F S1x2048 .f32) (x1 : Vec F S1536x2048 .f32) (x2 : Vec F S1x1536 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ (∃ X, owns (c : Thread nD τ) arg4 fullShare X)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; iexists _; isplitr
  swap; · iexact H3
  ipureintro
  rfl

variable (V : (c : Dev nD) → (b : Ref sig .tc) → Buf (Elt F) ((c : Thread nD τ).loc b))

def fgt3 : Fin cfg3.W → Bool := fun w => match w with
  | ⟨3, _⟩ => true
  | ⟨0, _⟩ => false
  | ⟨1, _⟩ => false
  | ⟨2, _⟩ => false

def iblk3F (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def fblk3F_1 (c : Dev nD) (t : Fin cfg3.N) : Vec F S1536x2048 .f32 :=
  (cfg3.win 1).fill (cfg3.grid.coords t) (fun _ => Scalar.ofBits .f32 0#32) (iblk3F V c 1 t)
def fblk3F_2 (c : Dev nD) (t : Fin cfg3.N) : Vec F S1x1536 .f32 :=
  (cfg3.win 2).fill (cfg3.grid.coords t) (fun _ => Scalar.ofBits .f32 0#32) (iblk3F V c 2 t)

theorem before3F_0_of {c : Dev nD} (dat : Dat τ (Elt F) Unit ℕ (Pipeline.UD sig nD τ) ℕ cfg3 c) (hA : dat.A 0 = V c (Pipeline.arrRef spec3 0))
    (hafter : ∀ t, dat.after 0 t = iblk3F V c 0 t) (t : Fin cfg3.N) (d) : dat.before 0 t d = iblk3F V c 0 t :=
  (dat.before_in_eq_fetched 0 rfl (fun _ => rfl) (fun _ _ _ => rfl) (fun t => by rw [hafter]; unfold Dat.blockOf iblk3F; rw [hA]; try rfl) t d).trans
    (by unfold Dat.fetched Dat.blockOf iblk3F; rw [hA]; try rfl)

theorem before3F_1_of {c : Dev nD} (dat : Dat τ (Elt F) Unit ℕ (Pipeline.UD sig nD τ) ℕ cfg3 c) (hA : dat.A 1 = V c (Pipeline.arrRef spec3 1))
    (t : Fin cfg3.N) (d) : dat.before 1 t d = (cfg3.win 1).fill (cfg3.grid.coords t) d (iblk3F V c 1 t) :=
  (dat.before_fetched 1 t (fetch3_1 t) d).trans (by unfold Dat.fetched Dat.blockOf iblk3F; rw [hA])
theorem before3F_2_of {c : Dev nD} (dat : Dat τ (Elt F) Unit ℕ (Pipeline.UD sig nD τ) ℕ cfg3 c) (hA : dat.A 2 = V c (Pipeline.arrRef spec3 2))
    (t : Fin cfg3.N) (d) : dat.before 2 t d = (cfg3.win 2).fill (cfg3.grid.coords t) d (iblk3F V c 2 t) :=
  (dat.before_fetched 2 t (fetch3_2 t) d).trans (by unfold Dat.fetched Dat.blockOf iblk3F; rw [hA])

def dat3F (c : Dev nD) : Dat τ (Elt F) Unit ℕ (Pipeline.UD sig nD τ) ℕ cfg3 c where
  A w := V c (Pipeline.arrRef spec3 w)
  after w t := match w with
    | ⟨0, _⟩ => iblk3F V c 0 t
    | ⟨1, _⟩ => fblk3F_1 V c t
    | ⟨2, _⟩ => fblk3F_2 V c t
    | ⟨3, _⟩ => fun _ => Scalar.ofBits .f32 0#32
  Φ _ := Pipeline.ΦA spec3 c
  q _ := fullShare
  owed _ := 0

theorem A_eq3F (c : Dev nD) (w : Fin cfg3.W) : (dat3F V c).A w = V c (Pipeline.arrRef spec3 w) := by
  dsimp only [dat3F]

theorem after3F_0 (c : Dev nD) (t : Fin cfg3.N) : (dat3F V c).after 0 t = iblk3F V c 0 t := by dsimp only [dat3F]
theorem after3F_1 (c : Dev nD) (t : Fin cfg3.N) : (dat3F V c).after 1 t = fblk3F_1 V c t := by dsimp only [dat3F]
theorem after3F_2 (c : Dev nD) (t : Fin cfg3.N) : (dat3F V c).after 2 t = fblk3F_2 V c t := by dsimp only [dat3F]

theorem before3F_0 (c : Dev nD) (t : Fin cfg3.N) (d) : (dat3F V c).before 0 t d = iblk3F V c 0 t :=
  before3F_0_of V (dat3F V c) (A_eq3F V c 0) (after3F_0 V c) t d
theorem before3F_1 (c : Dev nD) (t : Fin cfg3.N) (d) :
    (dat3F V c).before 1 t d = (cfg3.win 1).fill (cfg3.grid.coords t) d (iblk3F V c 1 t) :=
  before3F_1_of V (dat3F V c) (A_eq3F V c 1) t d
theorem before3F_2 (c : Dev nD) (t : Fin cfg3.N) (d) :
    (dat3F V c).before 2 t d = (cfg3.win 2).fill (cfg3.grid.coords t) d (iblk3F V c 2 t) :=
  before3F_2_of V (dat3F V c) (A_eq3F V c 2) t d

theorem cut3F_1 (c : Dev nD) (t : Fin cfg3.N) : (cfg3.win 1).cut (cfg3.grid.coords t) (fblk3F_1 V c t) = iblk3F V c 1 t :=
  (cfg3.win 1).cut_fill _ _ _
theorem cut3F_2 (c : Dev nD) (t : Fin cfg3.N) : (cfg3.win 2).cut (cfg3.grid.coords t) (fblk3F_2 V c t) = iblk3F V c 2 t :=
  (cfg3.win 2).cut_fill _ _ _

def bodyPre3F (c : Dev nD) (t : Fin cfg3.N) : sProp 𝕄 :=
  iprop((dat3F V c).Φ t.castSucc ∗ (dat3F V c).owesAt () t.castSucc
    ∗ (∃ d, owns (c : Thread nD τ) (st3_0 t) fullShare ((dat3F V c).before 0 t d))
    ∗ (∃ d, owns (c : Thread nD τ) (st3_1 t) fullShare ((dat3F V c).before 1 t d))
    ∗ (∃ d, owns (c : Thread nD τ) (st3_2 t) fullShare ((dat3F V c).before 2 t d))
    ∗ (∃ X, owns (c : Thread nD τ) (st3_3 t) fullShare X))

def bodyPost3F (c : Dev nD) (t : Fin cfg3.N) : sProp 𝕄 :=
  iprop((dat3F V c).Φ t.succ ∗ (dat3F V c).owesAt () t.succ
    ∗ owns (c : Thread nD τ) (st3_0 t) fullShare ((dat3F V c).after 0 t)
    ∗ (∃ d, owns (c : Thread nD τ) (st3_1 t) fullShare
        ((cfg3.win 1).fill (cfg3.grid.coords t) d ((cfg3.win 1).cut (cfg3.grid.coords t) ((dat3F V c).after 1 t))))
    ∗ (∃ d, owns (c : Thread nD τ) (st3_2 t) fullShare
        ((cfg3.win 2).fill (cfg3.grid.coords t) d ((cfg3.win 2).cut (cfg3.grid.coords t) ((dat3F V c).after 2 t))))
    ∗ (∃ X, owns (c : Thread nD τ) (st3_3 t) fullShare X))

theorem sound_body3F (c : Dev nD) (t : Fin cfg3.N) :
    bodyPre3F V c t ⊢ wp frame (wpE (defs₀ (F := F)) Variants.none c none) Set.univ (bodyAt3 t) (fun _ => bodyPost3F V c t) := by
  unfold bodyPre3F bodyPost3F bodyAt3
  simp only [before3F_0, before3F_1, before3F_2]
  rw [show (dat3F V c).Φ t.succ = (dat3F V c).Φ t.castSucc from rfl,
    show (dat3F V c).owesAt () t.succ = (dat3F V c).owesAt () t.castSucc from rfl,
    after3F_0, after3F_1, after3F_2, cut3F_1, cut3F_2]
  iintro ⟨HΦ, Ho, ⟨%d0, H0⟩, ⟨%d1, H1⟩, ⟨%d2, H2⟩, ⟨%X, H3⟩⟩
  iapply (sound_kernel3F c Set.univ _ _ _ _ _ _ _ _ _ (iblk3F V c 0 t)
    ((cfg3.win 1).fill (cfg3.grid.coords t) d1 (iblk3F V c 1 t)) ((cfg3.win 2).fill (cfg3.grid.coords t) d2 (iblk3F V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexact H3

theorem body_obligation3F (c : Dev nD) :
    BodyObligationLoose (dat3F (F := F) V c) (defs₀ (F := F)) Variants.none () Set.univ fgt3 := fun t => by
  rw [bigSep_W3, bigSep_W3]
  exact sound_body3F V c t

end Cert.Kernel.Hand

end
-- ==== Proof.Kernel.RunF.lean ====
import proofs.«418227_j23983097381305_3_alg».proof.Proof.Kernel.R0
import proofs.«418227_j23983097381305_3_alg».proof.Proof.Kernel.R1
import proofs.«418227_j23983097381305_3_alg».proof.Proof.Kernel.R2
import proofs.«418227_j23983097381305_3_alg».proof.Proof.Kernel.R3F
import proofs.«418227_j23983097381305_3_alg».proof.Proof.Gen.Kernel.Regions
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

namespace RunF

local notation "𝕄" => MT nD τ sig Unit (Elt F) ℕ (Pipeline.UD sig nD τ) ℕ

open Idealize.ShloMosaic.ValueIdx (ix1 ix2 ix3)

variable (m : (ℓ : Loc nD τ sig) → Buf (Elt F) ℓ)

def tbl : pre0.Contents (Elt F) := fun k => m (((0 : Dev nD) : Thread nD τ).loc (pre0.ref k))

abbrev adm : (p : Fin 4) → (pcfgs (F := F) p).Adm := fun
  | ⟨0, _⟩ => ⟨tbl m, trivial⟩
  | ⟨1, _⟩ => cfg1.toPCfg_adm
  | ⟨2, _⟩ => cfg2.toPCfg_adm
  | ⟨3, _⟩ => cfg3.toPCfg_adm

variable (hw : k0_chk1 (tword0 (F := F) (tbl m 0)))

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

abbrev W1' (hw : k0_chk1 (tword0 (F := F) (tbl m 0))) : Dev nD → Valuation τ sig (Elt F) := W1 m

def W2 (c : Dev nD) : Valuation τ sig (Elt F) :=
  Pipeline.withArrays spec0 c (W1' m hw c) fun w => (dat0 (V1 m) (adm m 0) hw c).arrAt w (cfg0 (adm m 0)).N
theorem W2_arr (c : Dev nD) (w : Fin (cfg0 (adm m 0)).W) :
    W2 m hw c (Proc.devRef .tc (Pipeline.arrRef spec0 w)) = (dat0 (V1 m) (adm m 0) hw c).arrAt w (cfg0 (adm m 0)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m hw c (Proc.devRef .tc b) = W1' m hw c (Proc.devRef .tc b) := by
  unfold W2; exact Pipeline.withArrays_of_ne spec0 c _ _ b hb

abbrev V2 : (c : Dev nD) → (b : Ref sig .tc) → Buf (Elt F) ((c : Thread nD τ).loc b) := fun c b => W2 m hw c b
abbrev W3 : Dev nD → Valuation τ sig (Elt F) := fun c => StableHlo.after hostOps1 (W2 m hw c)
abbrev V3 : (c : Dev nD) → (b : Ref sig .tc) → Buf (Elt F) ((c : Thread nD τ).loc b) := fun c b => W3 m hw c b

def W4 (c : Dev nD) : Valuation τ sig (Elt F) :=
  Pipeline.withArrays spec1 c (W3 m hw c) fun w => (dat1 (V3 m hw) c).arrAt w cfg1.N
theorem W4_arr (c : Dev nD) (w : Fin cfg1.W) :
    W4 m hw c (Proc.devRef .tc (Pipeline.arrRef spec1 w)) = (dat1 (V3 m hw) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m hw c (Proc.devRef .tc b) = W3 m hw c (Proc.devRef .tc b) := by
  unfold W4; exact Pipeline.withArrays_of_ne spec1 c _ _ b hb

abbrev V4 : (c : Dev nD) → (b : Ref sig .tc) → Buf (Elt F) ((c : Thread nD τ).loc b) := fun c b => W4 m hw c b
abbrev W5 : Dev nD → Valuation τ sig (Elt F) := fun c => StableHlo.after hostOps2 (W4 m hw c)
abbrev W6 : Dev nD → Valuation τ sig (Elt F) := fun c => StableHlo.after hostOps2_1 (W5 m hw c)
abbrev V6 : (c : Dev nD) → (b : Ref sig .tc) → Buf (Elt F) ((c : Thread nD τ).loc b) := fun c b => W6 m hw c b

def W7 (c : Dev nD) : Valuation τ sig (Elt F) :=
  Pipeline.withArrays spec2 c (W6 m hw c) fun w => (dat2 (V6 m hw) c).arrAt w cfg2.N
theorem W7_arr (c : Dev nD) (w : Fin cfg2.W) :
    W7 m hw c (Proc.devRef .tc (Pipeline.arrRef spec2 w)) = (dat2 (V6 m hw) c).arrAt w cfg2.N := by
  unfold W7; exact Pipeline.withArrays_arr spec2 (launch2 (F := F)).win.arr_inj c _ _ w
theorem W7_of_ne (c : Dev nD) (b : Ref sig .tc) (hb : ∀ w, Pipeline.arrRef spec2 w ≠ b) :
    W7 m hw c (Proc.devRef .tc b) = W6 m hw c (Proc.devRef .tc b) := by
  unfold W7; exact Pipeline.withArrays_of_ne spec2 c _ _ b hb

abbrev V7 : (c : Dev nD) → (b : Ref sig .tc) → Buf (Elt F) ((c : Thread nD τ).loc b) := fun c b => W7 m hw c b
abbrev W8 : Dev nD → Valuation τ sig (Elt F) := fun c => StableHlo.after hostOps3 (W7 m hw c)
abbrev V8 : (c : Dev nD) → (b : Ref sig .tc) → Buf (Elt F) ((c : Thread nD τ).loc b) := fun c b => W8 m hw c b

def pdats : (p : Fin 4) → (c : Dev nD) → Dat τ (Elt F) Unit ℕ (Pipeline.UD sig nD τ) ℕ (Pipeline.pin (pcfgs (F := F)) (adm m) p) c
  | ⟨0, _⟩ => fun c => dat0 (V1 m) (adm m 0) hw c
  | ⟨1, _⟩ => fun c => dat1 (V3 m hw) c
  | ⟨2, _⟩ => fun c => dat2 (V6 m hw) c
  | ⟨3, _⟩ => fun c => dat3F (V8 m hw) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF1 (c : Dev nD) (w : Fin cfg1.W) : (dat1 (V3 m hw) c).arrAt w cfg1.N = V4 m hw c (Pipeline.arrRef spec1 w) := (W4_arr m hw c w).symm
theorem hrest1 (c : Dev nD) : ∀ b, b ∉ Finset.univ.image (Pipeline.arrRef spec1) → V4 m hw c b = V3 m hw c b :=
  fun b hb => W4_of_ne m hw c b fun w e => hb (Finset.mem_image.mpr ⟨w, Finset.mem_univ _, e⟩)
theorem hF2 (c : Dev nD) (w : Fin cfg2.W) : (dat2 (V6 m hw) c).arrAt w cfg2.N = V7 m hw c (Pipeline.arrRef spec2 w) := (W7_arr m hw c w).symm
theorem hrest2 (c : Dev nD) : ∀ b, b ∉ Finset.univ.image (Pipeline.arrRef spec2) → V7 m hw c b = V6 m hw c b :=
  fun b hb => W7_of_ne m hw c b fun w e => hb (Finset.mem_image.mpr ⟨w, Finset.mem_univ _, e⟩)

set_option backward.isDefEq.respectTransparency.types false in

def reg1E : Pipeline.RegionSeg (pcfgs (F := F)) (adm m) (pdats m hw) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m hw) c).loose
  hwaits := Pipeline.hwaits_of_owed_zero _ _ _ _ L lv 1 fun _ _ => rfl
  pre c := iprop(StableHlo.held (c : Thread nD τ) (Pipeline.ucRefs τ sig) (W3 m hw c) ∗ R c)
  post c := iprop(StableHlo.held (c : Thread nD τ) (Pipeline.ucRefs τ sig) (W4 m hw c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m hw c)
  hentry c := by
    rw [Pipeline.ownSems0_none]
    have hsplit := Pipeline.arrays_of_unscopedBufs (p := 1) (pcfgs (F := F)) (adm m) (pdats m hw) (launch1 (F := F)).win (launch1 (F := F)).arr_whole c
      ((pdats m hw 1 c).share_full fun _ => rfl) (V3 m hw c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hw 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m hw 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m hw) ((pdats m hw 1 c).share_full fun _ => rfl)
      (V3 m hw c) (V4 m hw c) ((pdats m hw 1 c).arrAt · cfg1.N) (hF1 m hw c) (hrest1 m hw c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem dev_eq (c : Dev nD) : c = 0 := Subsingleton.elim _ _

theorem tbl_entry (c : Dev nD) : (fun k => V1 m c (pre0.ref k)) = tbl m := by
  funext k
  obtain rfl := dev_eq c
  match k with
  | ⟨0, _⟩ => exact StableHlo.after_of_writes_sub hostOps0 _ hostOps0_writes (r := main_arg0) (by decide)

theorem hF0 (c : Dev nD) (w : Fin (cfg0 (adm m 0)).W) :
    (dat0 (V1 m) (adm m 0) hw c).arrAt w (cfg0 (adm m 0)).N = V2 m hw c (Pipeline.arrRef spec0 w) := (W2_arr m hw c w).symm
theorem hrest0 (c : Dev nD) : ∀ b, b ∉ Finset.univ.image (Pipeline.arrRef spec0) → V2 m hw c b = V1 m c b :=
  fun b hb => W2_of_ne m hw c b fun w e => hb (Finset.mem_image.mpr ⟨w, Finset.mem_univ _, e⟩)

theorem rest0_split (c : Dev nD) :
    (Pipeline.unscopedRest (Ix := Unit) (Name := ℕ) (U := Pipeline.UD sig nD τ) (Lvl := ℕ) spec0 c (V1 m c) : sProp 𝕄)
      = iprop(Pipeline.prefHeld pre0 c (fun _ => fullShare) (tbl m)
          ∗ (bigSep H0 fun b => (((c : Thread nD τ)).loc b) ↦{fullShare} V1 m c b)
          ∗ (bigSep (Pipeline.restRefsP sig pre0 spec0 \ H0) fun b => (((c : Thread nD τ)).loc b) ↦{fullShare} V1 m c b)) := by
  rw [Pipeline.unscopedRest_split preFacts0 c (V1 m c), tbl_entry m c, Pipeline.unscopedRestP_sdiff pre0 spec0 H0 H0_sub c (V1 m c)]

set_option backward.isDefEq.respectTransparency.types false in

def reg0E : Pipeline.RegionSeg (pcfgs (F := F)) (adm m) (pdats m hw) () defs₀ 𝒱₀ L lv 0 where
  win := (launch0 (F := F)).win.to₀
  block_pos := (launch0 (F := F)).block_pos
  stage_whole := (launch0 (F := F)).stage_whole
  K := Fin 1
  osem := osem0
  ho := ownSemFacts0
  hbody c := (body_obligation0 (V1 m) (adm m 0) hw c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m hw c) ∗ R c)
  X c := iprop((∃ r, prngReg c r) ∗ Pipeline.ownSems0 (Ix := Unit) (Name := ℕ) (U := Pipeline.UD sig nD τ) (Lvl := ℕ) (Val := Elt F) (τ := τ) osem0 c
    ∗ (bigSep H0 fun b => (((c : Thread nD τ)).loc b) ↦{fullShare} V1 m c b))
  Y c := iprop((∃ r, prngReg c r) ∗ (bigSep H0 fun b => (((c : Thread nD τ)).loc b) ↦{fullShare} V1 m c b)
    ∗ Pipeline.prefHeld pre0 c (fun _ => fullShare) (tbl m))
  Z c := bigSep (Pipeline.restRefsP sig pre0 spec0 \ H0) fun b => (((c : Thread nD τ)).loc b) ↦{fullShare} V1 m c b
  hentry c := by
    have hsplit := Pipeline.arrays_of_unscopedBufs (p := 0) (pcfgs (F := F)) (adm m) (pdats m hw) (launch0 (F := F)).win (launch0 (F := F)).arr_whole c
      ((pdats m hw 0 c).share_full fun _ => rfl) (V1 m c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest0_split m c)) $$ Hrest
    icases H' with ⟨Htab, HH, HR⟩
    imodintro
    isplitl [Ha]; · iexact Ha
    isplitl [Htab]; · iexact Htab
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m hw 0 c).Φ 0 = Φ0 (V1 m) (adm m 0) c from rfl]; unfold Φ0; rw [Pipeline.ΦD_eq]
    iintro ⟨⟨Hp, Ho, HH⟩, Htab, Hr⟩
    isplitl [Hr Hp Ho HH]
    · isplitl [Hr]; · iexact Hr
      isplitl [Hp]; · iexact Hp
      isplitl [Ho]; · iexact Ho
      iexact HH
    iexact Htab
  hout c := by
    rw [show (pdats m hw 0 c).Φ (Fin.last _) = Φ0 (V1 m) (adm m 0) c from rfl]; unfold Φ0; rw [Pipeline.ΦD_eq]
    iintro ⟨⟨Hr, Hp, Ho, HH⟩, Htab⟩
    isplitl [Hp HH Htab]
    · isplitl [Hp]; · iexact Hp
      isplitl [HH]; · iexact HH
      iexact Htab
    isplitl [Ho]; · iexact Ho
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m hw) ((pdats m hw 0 c).share_full fun _ => rfl)
      (V1 m c) (V2 m hw c) ((pdats m hw 0 c).arrAt · (cfg0 (adm m 0)).N) (hF0 m hw c) (hrest0 m hw c)
    rw [Pipeline.unscopedBufs_held] at hjoin
    iintro ⟨Ha, HO, ⟨HY, HH, Htab⟩, HR⟩
    ihave Hrest := (Entails.of_eq (rest0_split m c).symm) $$ [Htab HH HR]
    · isplitl [Htab]; · iexact Htab
      isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2E : Pipeline.RegionSeg (pcfgs (F := F)) (adm m) (pdats m hw) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (V6 m hw) c).loose
  hwaits := Pipeline.hwaits_of_owed_zero _ _ _ _ L lv 2 fun _ _ => rfl
  pre c := iprop(StableHlo.held (c : Thread nD τ) (Pipeline.ucRefs τ sig) (W6 m hw c) ∗ R c)
  post c := iprop(StableHlo.held (c : Thread nD τ) (Pipeline.ucRefs τ sig) (W7 m hw c) ∗ R c)
  X c := iprop(∃ r, prngReg c r)
  Y c := iprop(∃ r, prngReg c r)
  Z c := Pipeline.unscopedRest (Ix := Unit) (Name := ℕ) (U := Pipeline.UD sig nD τ) (Lvl := ℕ) spec2 c (V6 m hw c)
  hentry c := by
    rw [Pipeline.ownSems0_none]
    have hsplit := Pipeline.arrays_of_unscopedBufs (p := 2) (pcfgs (F := F)) (adm m) (pdats m hw) (launch2 (F := F)).win (launch2 (F := F)).arr_whole c
      ((pdats m hw 2 c).share_full fun _ => rfl) (V6 m hw c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hw 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m hw 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m) (Ix := Unit) (Name := ℕ) (U := Pipeline.UD sig nD τ) (Lvl := ℕ)
      (launch2 (F := F)).win (launch2 (F := F)).arr_whole c (pdats m hw) ((pdats m hw 2 c).share_full fun _ => rfl)
      (V6 m hw c) (V7 m hw c) ((pdats m hw 2 c).arrAt · cfg2.N) (hF2 m hw c) (hrest2 m hw c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev argRefs : List (Ref sig .tc) :=
  [main_arg0, main_arg1, main_arg2, main_arg3, main_arg4, main_arg5, main_arg6, main_arg7, main_arg8, main_arg9, main_arg10, main_arg11,
    main_arg12, main_arg13]

def ArgsAt (c : Dev nD) (Wx : Valuation τ sig (Elt F)) : Prop :=
  ∀ r ∈ argRefs, Wx (Proc.devRef .tc r) = m ((c : Thread nD τ).loc r)

theorem ArgsAt_after (ops : List (HloOp τ sig (Elt F))) (Wl : List (Ref sig .tc))
    (hwr : ops.Forall fun op => op.writes ⊆ (Wl.map (Proc.devRef (τ := τ) .tc)).toFinset) (hno : ∀ r ∈ argRefs, r ∉ Wl)
    (c : Dev nD) (Wx : Valuation τ sig (Elt F)) (h : ArgsAt m c Wx) : ArgsAt m c (StableHlo.after ops Wx) :=
  fun r hr => (StableHlo.after_of_writes_sub ops Wx hwr (hno r hr)).trans (h r hr)

theorem ArgsAt_withArrays {gr Wn : Nat} (win : Fin Wn → Pipeline.WinSpec sig gr) (hinj : Function.Injective (Pipeline.arrRef win)) (c : Dev nD)
    (Wx : Valuation τ sig (Elt F)) (A : (w : Fin Wn) → Buf (Elt F) ((win w).arr.view.loc (c : Thread nD τ)))
    (hA : ∀ w, Pipeline.arrRef win w ∈ argRefs → A w = Wx (Proc.devRef .tc (Pipeline.arrRef win w)))
    (h : ArgsAt m c Wx) : ArgsAt m c (Pipeline.withArrays win c Wx A) := fun r hr => by
  by_cases he : ∃ w, Pipeline.arrRef win w = r
  · obtain ⟨w, rfl⟩ := he
    exact ((Pipeline.withArrays_arr win hinj c Wx A w).trans (hA w hr)).trans (h _ hr)
  · exact (Pipeline.withArrays_of_ne win c Wx A r fun w e => he ⟨w, e⟩).trans (h r hr)

theorem isIn0 : ∀ w : Fin 7, Pipeline.arrRef spec0 w ∈ argRefs → (spec0 w).isOut = false := by decide
theorem isIn1 : ∀ w : Fin 4, Pipeline.arrRef spec1 w ∈ argRefs → (spec1 w).isOut = false := by decide
theorem isIn2 : ∀ w : Fin 8, Pipeline.arrRef spec2 w ∈ argRefs → (spec2 w).isOut = false := by decide
theorem isIn3 : ∀ w : Fin 4, Pipeline.arrRef spec3 w ∈ argRefs → (spec3 w).isOut = false := by decide

theorem fgt3_of_arg : ∀ w : Fin 4, Pipeline.arrRef spec3 w ∈ argRefs → fgt3 w = false := by decide

theorem args_W0 (c : Dev nD) : ArgsAt m c (W0 m c) := fun r _ => rfl
theorem args_W1 (c : Dev nD) : ArgsAt m c (W1 m c) := ArgsAt_after m hostOps0 hostOps0_W hostOps0_writes (by decide) c _ (args_W0 m c)
theorem args_W2 (c : Dev nD) : ArgsAt m c (W2 m hw c) := by
  unfold W2
  exact ArgsAt_withArrays m spec0 (launch0 (F := F)).win.arr_inj c _ _
    (fun w hmem => ((dat0 (V1 m) (adm m 0) hw c).arrAt_in w (isIn0 w hmem) _).trans (A_eq0 (V1 m) (adm m 0) hw c w)) (args_W1 m c)
theorem args_W3 (c : Dev nD) : ArgsAt m c (W3 m hw c) := ArgsAt_after m hostOps1 hostOps1_W hostOps1_writes (by decide) c _ (args_W2 m hw c)
theorem args_W4 (c : Dev nD) : ArgsAt m c (W4 m hw c) := by
  unfold W4
  exact ArgsAt_withArrays m spec1 (launch1 (F := F)).win.arr_inj c _ _
    (fun w hmem => ((dat1 (V3 m hw) c).arrAt_in w (isIn1 w hmem) _).trans (A_eq1 (V3 m hw) c w)) (args_W3 m hw c)
theorem args_W5 (c : Dev nD) : ArgsAt m c (W5 m hw c) := ArgsAt_after m hostOps2 hostOps2_W hostOps2_writes (by decide) c _ (args_W4 m hw c)
theorem args_W6 (c : Dev nD) : ArgsAt m c (W6 m hw c) := ArgsAt_after m hostOps2_1 hostOps2_1_W hostOps2_1_writes (by decide) c _ (args_W5 m hw c)
theorem args_W7 (c : Dev nD) : ArgsAt m c (W7 m hw c) := by
  unfold W7
  exact ArgsAt_withArrays m spec2 (launch2 (F := F)).win.arr_inj c _ _
    (fun w hmem => ((dat2 (V6 m hw) c).arrAt_in w (isIn2 w hmem) _).trans (A_eq2 (V6 m hw) c w)) (args_W6 m hw c)
theorem args_W8 (c : Dev nD) : ArgsAt m c (W8 m hw c) := ArgsAt_after m hostOps3 hostOps3_W hostOps3_writes (by decide) c _ (args_W7 m hw c)

def rdats : (p : Fin 4) → (c : Dev nD) → Pipeline.RDat τ (Elt F) Unit ℕ (Pipeline.UD sig nD τ) ℕ (Pipeline.pin (pcfgs (F := F)) (adm m) p) c
  | ⟨0, _⟩ => fun c => (pdats m hw 0 c).toR
  | ⟨1, _⟩ => fun c => (pdats m hw 1 c).toR
  | ⟨2, _⟩ => fun c => (pdats m hw 2 c).toR
  | ⟨3, _⟩ => fun c => (pdats m hw 3 c).toRForget fgt3

abbrev reg0R := Pipeline.RegionSeg.toR (pcfgs (F := F)) (adm m) (pdats m hw) () defs₀ 𝒱₀ L lv (reg0E m hw)
abbrev reg1R := Pipeline.RegionSeg.toR (pcfgs (F := F)) (adm m) (pdats m hw) () defs₀ 𝒱₀ L lv (reg1E m hw)
abbrev reg2R := Pipeline.RegionSeg.toR (pcfgs (F := F)) (adm m) (pdats m hw) () defs₀ 𝒱₀ L lv (reg2E m hw)

def reg0 : Pipeline.RDat.RegionSeg (pcfgs (F := F)) (adm m) (rdats m hw) () defs₀ 𝒱₀ L lv 0 where
  win := (reg0E m hw).win
  block_pos := (reg0E m hw).block_pos
  stage_whole := (reg0E m hw).stage_whole
  K := (reg0E m hw).K
  fK := (reg0E m hw).fK
  osem := (reg0E m hw).osem
  ho := (reg0E m hw).ho
  hbody := (reg0R m hw).hbody
  hwaits := Pipeline.RDat.hwaits_of_owed_zero _ _ _ _ L lv 0 fun _ _ => rfl
  pre := (reg0E m hw).pre
  post := (reg0E m hw).post
  X := (reg0E m hw).X
  Y := (reg0E m hw).Y
  Z := (reg0E m hw).Z
  hentry := (reg0R m hw).hentry
  hin := (reg0R m hw).hin
  hout := (reg0R m hw).hout
  hexit := (reg0R m hw).hexit

def reg1 : Pipeline.RDat.RegionSeg (pcfgs (F := F)) (adm m) (rdats m hw) () defs₀ 𝒱₀ L lv 1 where
  win := (reg1E m hw).win
  block_pos := (reg1E m hw).block_pos
  stage_whole := (reg1E m hw).stage_whole
  K := (reg1E m hw).K
  fK := (reg1E m hw).fK
  osem := (reg1E m hw).osem
  ho := (reg1E m hw).ho
  hbody := (reg1R m hw).hbody
  hwaits := Pipeline.RDat.hwaits_of_owed_zero _ _ _ _ L lv 1 fun _ _ => rfl
  pre := (reg1E m hw).pre
  post := (reg1E m hw).post
  X := (reg1E m hw).X
  Y := (reg1E m hw).Y
  Z := (reg1E m hw).Z
  hentry := (reg1R m hw).hentry
  hin := (reg1R m hw).hin
  hout := (reg1R m hw).hout
  hexit := (reg1R m hw).hexit

def reg2 : Pipeline.RDat.RegionSeg (pcfgs (F := F)) (adm m) (rdats m hw) () defs₀ 𝒱₀ L lv 2 where
  win := (reg2E m hw).win
  block_pos := (reg2E m hw).block_pos
  stage_whole := (reg2E m hw).stage_whole
  K := (reg2E m hw).K
  fK := (reg2E m hw).fK
  osem := (reg2E m hw).osem
  ho := (reg2E m hw).ho
  hbody := (reg2R m hw).hbody
  hwaits := Pipeline.RDat.hwaits_of_owed_zero _ _ _ _ L lv 2 fun _ _ => rfl
  pre := (reg2E m hw).pre
  post := (reg2E m hw).post
  X := (reg2E m hw).X
  Y := (reg2E m hw).Y
  Z := (reg2E m hw).Z
  hentry := (reg2R m hw).hentry
  hin := (reg2R m hw).hin
  hout := (reg2R m hw).hout
  hexit := (reg2R m hw).hexit

abbrev TX (c : Dev nD) : sProp 𝕄 :=
  iprop(∃ Wx : Valuation τ sig (Elt F), ⌜ArgsAt m c Wx⌝ ∗ StableHlo.held (c : Thread nD τ) (Pipeline.ucRefs τ sig) Wx ∗ R c)

theorem arraysAt3_open (c : Dev nD) :
    ((rdats m hw 3 c).arraysAt cfg3.N : sProp 𝕄)
      ⊢ iprop(∃ A : (w : Fin cfg3.W) → Buf (Elt F) ((cfg3.win w).arr.view.loc (c : Thread nD τ)),
          ⌜∀ w, (rdats m hw 3 c).ArrAt w cfg3.N (A w)⌝ ∗ (pdats m hw 3 c).arrays A) := by
  unfold Pipeline.RDat.arraysAt Pipeline.Dat.arrays
  iintro Ha
  ihave Ha' := (BI.bigSep_exists_pi Finset.univ (fun (w : Fin cfg3.W) Fw => iprop(⌜(rdats m hw 3 c).ArrAt w cfg3.N Fw⌝
      ∗ (cfg3.win w).arr.view.loc (c : Thread nD τ) ↦[(cfg3.win w).arr.view.set]{(rdats m hw 3 c).share w} Fw))) $$ Ha
  icases Ha' with ⟨%A, Ha⟩
  ihave Ha2 := (BI.bigSep_pure_sep Finset.univ (fun (w : Fin cfg3.W) => (rdats m hw 3 c).ArrAt w cfg3.N (A w))
      (fun w => (cfg3.win w).arr.view.loc (c : Thread nD τ) ↦[(cfg3.win w).arr.view.set]{(rdats m hw 3 c).share w} A w)) $$ Ha
  icases Ha2 with ⟨%hA, Ha⟩
  iexists A; isplitr; · ipureintro; exact fun w => hA w (Finset.mem_univ w)
  iexact Ha

theorem args_exit3 (c : Dev nD) (A : (w : Fin cfg3.W) → Buf (Elt F) ((cfg3.win w).arr.view.loc (c : Thread nD τ)))
    (hA : ∀ w, (rdats m hw 3 c).ArrAt w cfg3.N (A w)) : ArgsAt m c (Pipeline.withArrays spec3 c (W8 m hw c) A) :=
  ArgsAt_withArrays m spec3 (launch3 (F := F)).win.arr_inj c _ _
    (fun w hmem => (((dat3F (V8 m hw) c).toRForget_arrAt_iff (fgt3_of_arg w hmem) cfg3.N (A w)).mp (hA w)).trans
        (((dat3F (V8 m hw) c).arrAt_in w (isIn3 w hmem) _).trans (A_eq3F (V8 m hw) c w)))
    (args_W8 m hw c)

set_option backward.isDefEq.respectTransparency.types false in

def reg3 : Pipeline.RDat.RegionSeg (pcfgs (F := F)) (adm m) (rdats m hw) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3F (V8 m hw) c).toRForget
  hwaits := Pipeline.RDat.hwaits_of_owed_zero _ _ _ _ L lv 3 fun _ _ => rfl
  pre c := iprop(StableHlo.held (c : Thread nD τ) (Pipeline.ucRefs τ sig) (W8 m hw c) ∗ R c)
  post c := TX m c
  X c := iprop(∃ r, prngReg c r)
  Y c := iprop(∃ r, prngReg c r)
  Z c := Pipeline.unscopedRest (Ix := Unit) (Name := ℕ) (U := Pipeline.UD sig nD τ) (Lvl := ℕ) spec3 c (V8 m hw c)
  hentry c := by
    rw [Pipeline.ownSems0_none]
    have hsplit := Pipeline.RDat.arrays_of_unscopedBufs (p := 3) (pcfgs (F := F)) (adm m) (rdats m hw) (launch3 (F := F)).win (launch3 (F := F)).arr_whole c
      ((pdats m hw 3 c).share_full fun _ => rfl) (V8 m hw c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m hw 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m hw 3 c).Φ (Fin.last _) = Pipeline.ΦA spec3 c from rfl]; unfold Pipeline.ΦA
    iintro ⟨Hr, Hp⟩
    isplitl [Hp]; · iexact Hp
    isplitr; · iempintro
    iexact Hr
  hexit c := by
    have hopen := arraysAt3_open m hw c
    iintro ⟨Ha, HO, HY, Hrest⟩
    ihave Ha' := hopen $$ Ha
    icases Ha' with ⟨%A, %hA, Ha⟩
    have hjoin := Pipeline.unscopedBufs_of_arrays (p := 3) (pcfgs (F := F)) (adm m) (Ix := Unit) (Name := ℕ) (U := Pipeline.UD sig nD τ) (Lvl := ℕ)
      (launch3 (F := F)).win (launch3 (F := F)).arr_whole c (pdats m hw) ((pdats m hw 3 c).share_full fun _ => rfl)
      (V8 m hw c) (fun b => Pipeline.withArrays spec3 c (W8 m hw c) A b) A
      (fun w => (Pipeline.withArrays_arr spec3 (launch3 (F := F)).win.arr_inj c _ _ w).symm)
      (fun b hb => Pipeline.withArrays_of_ne spec3 c _ _ b fun w e => hb (Finset.mem_image.mpr ⟨w, Finset.mem_univ _, e⟩))
    rw [Pipeline.unscopedBufs_held] at hjoin
    imodintro
    iexists (Pipeline.withArrays spec3 c (W8 m hw c) A)
    isplitr; · ipureintro; exact args_exit3 m hw c A hA
    isplitl [Ha Hrest]
    · iapply hjoin; isplitl [Ha] <;> iassumption
    isplitl [HY]; · iexact HY
    unfold Pipeline.RDat.owesAt Pipeline.owesWithin
    icases HO with ⟨%W, -, HO⟩; iexists W; iexact HO

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

def hsegX (ops : List (HloOp τ sig (Elt F))) (hsub : ops.Forall fun op => op.bufs ⊆ StableHlo.tcRefs τ sig)
    (hfresh : ops.Forall fun op => op.fresh = ∅) (Wl : List (Ref sig .tc))
    (hwr : ops.Forall fun op => op.writes ⊆ (Wl.map (Proc.devRef (τ := τ) .tc)).toFinset) (hno : ∀ r ∈ argRefs, r ∉ Wl) :
    Pipeline.HostSeg (Name := ℕ) (U := Pipeline.UD sig nD τ) (pcfgs (F := F)) defs₀ 𝒱₀ L lv where
  prog := StableHlo.seq ops
  pre := TX m
  post := TX m
  run c {β} k K := by
    iintro ⟨Hk, Hbd, ⟨%Wx, %hWx, Hh, HR⟩, Hlev⟩
    iapply ((hseg ops hsub hfresh (fun _ => Wx)).run c k K)
    dsimp only [hseg, Pipeline.HostSeg.ofOps]
    isplitl [Hk]
    · iintro ⟨Hbd, Hh, HR⟩
      iapply Hk
      isplitl [Hbd]; · iexact Hbd
      iexists (StableHlo.after ops Wx)
      isplitr; · ipureintro; exact ArgsAt_after m ops Wl hwr hno c Wx hWx
      isplitl [Hh]; · iexact Hh
      iexact HR
    isplitl [Hbd]; · iexact Hbd
    isplitl [Hh HR]
    · isplitl [Hh]; · iexact Hh
      iexact HR
    iexact Hlev

abbrev Tₙ (c : Dev nD) : sProp 𝕄 :=
  iprop(∃ Wx : Valuation τ sig (Elt F), ⌜ArgsAt m c Wx⌝ ∗ StableHlo.held (c : Thread nD τ) (Pipeline.ucRefs τ sig) Wx ∗ ∃ r, prngReg c r)

abbrev mainSegs : List (Pipeline.RDat.Seg (pcfgs (F := F)) (adm m) (rdats m hw) () defs₀ 𝒱₀ L lv) :=
  [ .host (hseg hostOps0 hostOps0_sub hostOps0_fresh (W0 m)),
    .region (reg0 m hw),
    .host (hseg hostOps1 hostOps1_sub hostOps1_fresh (W2 m hw)),
    .region (reg1 m hw),
    .host (hseg hostOps2 hostOps2_sub hostOps2_fresh (W4 m hw)),
    .host (hseg hostOps2_1 hostOps2_1_sub hostOps2_1_fresh (W5 m hw)),
    .region (reg2 m hw),
    .host (hseg hostOps3 hostOps3_sub hostOps3_fresh (W7 m hw)),
    .region (reg3 m hw),
    .host (hsegX m hostOps4 hostOps4_sub hostOps4_fresh hostOps4_W hostOps4_writes (by decide)),
    .host (hsegX m hostOps4_1 hostOps4_1_sub hostOps4_1_fresh hostOps4_1_W hostOps4_1_writes (by decide)) ]

theorem main_run (c : Dev nD) : main (F := F) c = Pipeline.RDat.Seg.run (mainSegs m hw) := (main_chain c).trans (by chain_rfl)

end RunF

open RunF in
set_option backward.isDefEq.respectTransparency.types false in

theorem frame (m : (ℓ : Loc nD τ sig) → Buf (Elt F) ℓ) (ρ : Dev nD → PrngReg) (hw : k0_chk1 (tword0 (F := F) (RunF.tbl m 0))) :
    θ_run defs (onTc (τ := τ) (main (F := F))) ⟨m, fun _ => 0, ρ⟩ (fun r => ∀ c : Dev nD, ∀ b ∈ RunF.argRefs,
      r.2.mem ((c.tc : Thread nD τ).loc b) = m ((c.tc : Thread nD τ).loc b)) :=
  Pipeline.RDat.θ_run_regions_kit (pcfgs (F := F)) (adm m) (rdats m hw) () (cellOf_inj (adm m)) embL defs₀ 𝒱₀ L lv m ρ main (mainSegs m hw)
    (fun c Q => by rw [main_run m hw c])
    (by simp only [mainSegs, Pipeline.RDat.Seg.pipes_host, Pipeline.RDat.Seg.pipes_region, Pipeline.RDat.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp (MT nD τ sig Unit (Elt F) ℕ (Pipeline.UD sig nD τ) ℕ)) ⊢ bigSep Finset.univ (fun _ : Dev nD => (BI.emp : sProp (MT nD τ sig Unit (Elt F) ℕ (Pipeline.UD sig nD τ) ℕ))) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show TX m c ⊢ _
        iintro ⟨%Wx, %hWx, Hh, Hp, HO⟩
        isplitl [Hh Hp]
        · iexists Wx; isplitr; · ipureintro; exact hWx
          isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ argRefs, s.mem ((c.tc : Thread nD τ).loc b) = m ((c.tc : Thread nD τ).loc b))
    (hfin := fun c s' => by
      iintro ⟨⟨%Wx, %hWx, Hh, -⟩, HSI⟩
      unfold StableHlo.held
      ihave Hr := (pointsTo_read_all (Pipeline.ucRefs τ sig) (fun b => (((c : Thread nD τ)).1, b)) Wx s') $$ [Hh HSI]
      · isplitl [Hh] <;> iassumption
      icases Hr with ⟨%h, HSI⟩
      imodintro
      isplitr
      · ipureintro
        exact fun b hb => (h (Proc.devRef .tc b) (mem_uc b ((by decide : ∀ b ∈ argRefs, ¬ (Proc.devRef .tc b : DevRef τ sig).isScoped) b hb))).trans (hWx b hb)
      · iexact HSI)
    (hQ := fun s h c => h c)

end Cert.Kernel.Hand

end
-- ==== Proof.Kernel.R0C.lean ====
import proofs.«418227_j23983097381305_3_alg».proof.Proof.Kernel.R0
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

theorem tword0_ix (xt : (pre0.ref 0).ty.Contents (Elt F)) : tword0 (F := F) xt = xt (ix1 (0 : Fin 1)) :=
  (tword0_eq xt (ix1 (0 : Fin 1))).trans rfl

theorem chk_of_lt (xt : (pre0.ref 0).ty.Contents (Elt F)) (h : (xt (ix1 (0 : Fin 1))).toNat < 50257) :
    k0_chk1 (tword0 (F := F) xt) := by
  rw [tword0_ix]
  intro b
  match b with
  | ⟨0, _⟩ => show (xt (ix1 (0 : Fin 1))).toNat + 1 ≤ 50257; omega
  | ⟨1, _⟩ => show 0 + 2048 ≤ 2048; omega

end Cert.Kernel.Hand

end
-- ==== Proof.ClaimsB.lean ====
import proofs.«418227_j23983097381305_3_alg».proof.Defs
import proofs.«418227_j23983097381305_3_alg».proof.Proof.Kernel.RunF
import proofs.«418227_j23983097381305_3_alg».proof.Proof.Kernel.R0C
import proofs.«418227_j23983097381305_3_alg».proof.Proof.PreWord
import proofs.«418227_j23983097381305_3_alg».proof.Proof.Gen.Pre_finite_inputs

set_option maxRecDepth 16384

noncomputable section

namespace Cert.Proof.ClaimsB

open Cert.Kernel Cert.Kernel.Gen Cert.Kernel.Hand
open Idealize.ShloMosaic Idealize.ShloMosaic.TcCoe Idealize.SL.Sem
open Idealize.ShloMosaic.ValueIdx (ix1)

-- Under the precondition the word names a row of the embedding matrix, which is what the first call assumes of it.
theorem frame_p : Cert.frame_Kernel := fun m ρ hpre =>
  (θ_run Cert.Kernel.defs _ _).mono (fun r h c => ⟨h c main_arg0 (by decide), h c main_arg1 (by decide), h c main_arg2 (by decide), h c main_arg3 (by decide), h c main_arg4 (by decide), h c main_arg5 (by decide), h c main_arg6 (by decide), h c main_arg7 (by decide), h c main_arg8 (by decide), h c main_arg9 (by decide), h c main_arg10 (by decide), h c main_arg11 (by decide), h c main_arg12 (by decide), h c main_arg13 (by decide)⟩)
    (Cert.Kernel.Hand.frame m ρ (chk_of_lt (F := Bits) (RunF.tbl m 0) (Cert.PreWord.word_lt _ _ _ _ _ _ _ _ _ _ _ _ _ _ (hpre 0))))

end Cert.Proof.ClaimsB

end
-- ==== Proof.lean ====
/- One decoding step of an attention decoder with a gated recurrent cell. On the extended reals both programs apply the same
   operations to the same arguments, every matrix product being the plain sum of products; the one law that joins them is that a
   finite sum may be split in two (the attention logits' 4096 terms as 2048 + 2048), which needs no finiteness. -/
import proofs.«418227_j23983097381305_3_alg».proof.Defs
import proofs.«418227_j23983097381305_3_alg».proof.Proof.Gen.Kernel
import proofs.«418227_j23983097381305_3_alg».proof.Proof.Gen.KernelIdeal
import proofs.«418227_j23983097381305_3_alg».proof.Proof.Gen.ReferenceIdeal
import proofs.«418227_j23983097381305_3_alg».proof.Proof.Gen.Pre_finite_inputs
import proofs.«418227_j23983097381305_3_alg».proof.Proof.ClaimsI
import proofs.«418227_j23983097381305_3_alg».proof.Proof.ClaimsB

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.ClaimsB.frame_p, Cert.Proof.ClaimsI.frame_pi, Cert.Proof.ClaimsI.frame_ri, trivial, Cert.Proof.ClaimsI.algebraic⟩

end Cert.Proof

end
